-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x10 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x10 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S5000x128 : Shape := ⟨2, ![5000, 128]⟩
abbrev S5000x1 : Shape := ⟨2, ![5000, 1]⟩
abbrev S600000x128 : Shape := ⟨2, ![600000, 128]⟩
abbrev S1x128 : Shape := ⟨2, ![1, 128]⟩
abbrev S2000x128 : Shape := ⟨2, ![2000, 128]⟩
abbrev S2000x1 : Shape := ⟨2, ![2000, 1]⟩
abbrev S64 : Shape := ⟨1, ![64]⟩
abbrev S64x1 : Shape := ⟨2, ![64, 1]⟩
abbrev S1x10 : Shape := ⟨2, ![1, 10]⟩
abbrev S64x10 : Shape := ⟨2, ![64, 10]⟩
abbrev S64x128 : Shape := ⟨2, ![64, 128]⟩
abbrev S2000x64 : Shape := ⟨2, ![2000, 64]⟩
abbrev S64x2000 : Shape := ⟨2, ![64, 2000]⟩

abbrev nBuf : Space → Nat
  | .hbm => 91
  | .vmem => 53
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .f32⟩
  | .hbm, ⟨16, _⟩ => ⟨S600000, .f32⟩
  | .hbm, ⟨17, _⟩ => ⟨S_, .f32⟩
  | .hbm, ⟨18, _⟩ => ⟨S50000, .f32⟩
  | .hbm, ⟨19, _⟩ => ⟨S600000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S_, .f32⟩
  | .hbm, ⟨42, _⟩ => ⟨S50000x128, .f32⟩
  | .hbm, ⟨43, _⟩ => ⟨S600000x1, .i32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S600000, .i32⟩
  | .hbm, ⟨66, _⟩ => ⟨S600000, .i1⟩
  | .hbm, ⟨67, _⟩ => ⟨S_, .i32⟩
  | .hbm, ⟨68, _⟩ => ⟨S600000, .i32⟩
  | .hbm, ⟨69, _⟩ => ⟨S600000, .i32⟩
  | .hbm, ⟨70, _⟩ => ⟨S600000, .i32⟩
  | .hbm, ⟨71, _⟩ => ⟨S600000x1, .i32⟩
  | .hbm, ⟨72, _⟩ => ⟨S600000x128, .f32⟩
  | .hbm, ⟨73, _⟩ => ⟨S_, .f32⟩
  | .hbm, ⟨74, _⟩ => ⟨S50000x128, .f32⟩
  | .hbm, ⟨75, _⟩ => ⟨S600000x1, .i32⟩
  | .hbm, ⟨76, _⟩ => ⟨S50000x128, .f32⟩
  | .hbm, ⟨77, _⟩ => ⟨S_, .f32⟩
  | .hbm, ⟨78, _⟩ => ⟨S50000, .f32⟩
  | .hbm, ⟨79, _⟩ => ⟨S_, .f32⟩
  | .hbm, ⟨80, _⟩ => ⟨S64, .f32⟩
  | .hbm, ⟨81, _⟩ => ⟨S50000x1, .i32⟩
  | .hbm, ⟨82, _⟩ => ⟨S64, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S1x128, .f32⟩
  | .hbm, ⟨87, _⟩ => ⟨S50000x1, .i32⟩
  | .hbm, ⟨88, _⟩ => ⟨S64x1, .f32⟩
  | .hbm, ⟨89, _⟩ => ⟨S1x10, .f32⟩
  | .hbm, ⟨90, _⟩ => ⟨S64x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x1, .f32⟩
  | .local _ .vmem, ⟨16, _⟩ => ⟨S2000x1, .f32⟩
  | .local _ .vmem, ⟨17, _⟩ => ⟨S1x128, .f32⟩
  | .local _ .vmem, ⟨18, _⟩ => ⟨S128x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x1, .f32⟩
  | .local _ .vmem, ⟨28, _⟩ => ⟨S2000x1, .f32⟩
  | .local _ .vmem, ⟨29, _⟩ => ⟨S2000x1, .f32⟩
  | .local _ .vmem, ⟨30, _⟩ => ⟨S2000x1, .f32⟩
  | .local _ .vmem, ⟨31, _⟩ => ⟨S1x128, .f32⟩
  | .local _ .vmem, ⟨32, _⟩ => ⟨S128x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x1, .f32⟩
  | .local _ .vmem, ⟨42, _⟩ => ⟨S2000x1, .f32⟩
  | .local _ .vmem, ⟨43, _⟩ => ⟨S2000x1, .f32⟩
  | .local _ .vmem, ⟨44, _⟩ => ⟨S2000x1, .f32⟩
  | .local _ .vmem, ⟨45, _⟩ => ⟨S1x128, .f32⟩
  | .local _ .vmem, ⟨46, _⟩ => ⟨S2000x1, .i32⟩
  | .local _ .vmem, ⟨47, _⟩ => ⟨S2000x1, .i32⟩
  | .local _ .vmem, ⟨48, _⟩ => ⟨S64x1, .f32⟩
  | .local _ .vmem, ⟨49, _⟩ => ⟨S128x10, .f32⟩
  | .local _ .vmem, ⟨50, _⟩ => ⟨S1x10, .f32⟩
  | .local _ .vmem, ⟨51, _⟩ => ⟨S64x10, .f32⟩
  | .local _ .vmem, ⟨52, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27_0 : Ref sig .tc := ⟨.hbm, 46, rfl⟩
abbrev main_v27_1 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39_0 : Ref sig .tc := ⟨.hbm, 62, rfl⟩
abbrev main_v39_1 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_cst_12 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_13 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_stg7_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg2_1 : Ref sig .tc := ⟨.vmem, 42, rfl⟩
abbrev cc3_stg3_0 : Ref sig .tc := ⟨.vmem, 43, rfl⟩
abbrev cc3_stg3_1 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg5_1 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg8_0 : Ref sig .tc := ⟨.vmem, 50, rfl⟩
abbrev cc3_stg9_0 : Ref sig .tc := ⟨.vmem, 51, rfl⟩
abbrev cc3_scratch0 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem6_1 : DmaSem sig := 20
abbrev cc1_sem7_0 : DmaSem sig := 21
abbrev cc1_sem7_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem5_0 : DmaSem sig := 32
abbrev cc2_sem6_0 : DmaSem sig := 33
abbrev cc2_sem6_1 : DmaSem sig := 34
abbrev cc2_sem7_0 : DmaSem sig := 35
abbrev cc2_sem7_1 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem2_1 : DmaSem sig := 42
abbrev cc3_sem3_0 : DmaSem sig := 43
abbrev cc3_sem3_1 : DmaSem sig := 44
abbrev cc3_sem4_0 : DmaSem sig := 45
abbrev cc3_sem5_0 : DmaSem sig := 46
abbrev cc3_sem5_1 : DmaSem sig := 47
abbrev cc3_sem6_0 : DmaSem sig := 48
abbrev cc3_sem7_0 : DmaSem sig := 49
abbrev cc3_sem8_0 : DmaSem sig := 50
abbrev cc3_sem9_0 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v36 : BitVec 1 := Scalar.cmpi .eq arg0 c24_i32
  let v37 : BitVec 32 := Scalar.extui v36
  let c0_i32_17 : BitVec 32 := 0#32
  let v38 : BitVec 1 := Scalar.cmpi .ne v37 c0_i32_17
  v38

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x1 .i32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S64x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x10 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x10 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x10 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S64 : S_.BroadcastsInDim S64 (![] : Fin 0 → Fin S64.rank)
  bcast_S50000_S50000x1_0 : S50000.BroadcastsInDim S50000x1 (![0] : Fin 1 → Fin S50000x1.rank)
  shapeCasts_S64_S64x1 : S64.ShapeCasts S64x1
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S2000x64_d1_w32 : S2000x64.Iotas .tc 32 [1]
  broadcasts_S2000x1_S2000x64 : S2000x1.Broadcasts S2000x64
  natLt_1_32 : 1 < 32
  transposes_S2000x64_p1_0_S64x2000 : S2000x64.Transposes [1, 0] S64x2000
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  scatter_S64_S50000x1_S50000_n_0_0_1_wf : ScatterDims.WF S64 S50000x1 S50000 [] [0] [0] 1
  dot_S64x2000_S2000x128_S64x128_1_0_0_1_n_n_wf : DotDims.WF S64x2000 S2000x128 S64x128 [1] [0] [0] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .f32 = 32 ∨ (Rect.block (s := S50000x1) S2000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S50000x1.size a
  hwx3_3 : ∀ i : grid3.Coords, EltTy.bits .f32 = 32 ∨ (Rect.block (s := S50000x1) S2000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x1.size a ≤ S50000x1.size a
  hwx3_5 : ∀ i : grid3.Coords, EltTy.bits .i32 = 32 ∨ (Rect.block (s := S50000x1) S2000x1.size (cc3_transform_5 i) (hinb3_5 i)).WholeWords (EltTy.packing .i32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x1.size a ≤ S64x1.size a
  hwx3_6 : ∀ i : grid3.Coords, EltTy.bits .f32 = 32 ∨ (Rect.block (s := S64x1) S64x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x10.size a ≤ S128x10.size a
  hwx3_7 : ∀ i : grid3.Coords, EltTy.bits .f32 = 32 ∨ (Rect.block (s := S128x10) S128x10.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x10.size a ≤ S1x10.size a
  hwx3_8 : ∀ i : grid3.Coords, EltTy.bits .f32 = 32 ∨ (Rect.block (s := S1x10) S1x10.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64x10.size a ≤ S64x10.size a
  hwx3_9 : ∀ i : grid3.Coords, EltTy.bits .f32 = 32 ∨ (Rect.block (s := S64x10) S64x10.size (cc3_transform_9 i) (hinb3_9 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x2000_S2000x128_S64x128_1_0_0_1_n_n : DotDims S64x2000 S2000x128 S64x128 where
  lhsContracting := [1]
  rhsContracting := [0]
  lhsNonContracting := [0]
  rhsNonContracting := [1]
  lhsBatch := []
  rhsBatch := []
  wf := dot_S64x2000_S2000x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27_0) S2000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v27_1) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27_0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v14) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v39_1) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v49) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39_0) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v14) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S2000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v58) S64x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg9) S128x10.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v59) S1x10.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v60) S64x10.size cc3_transform_9 reads3_9 true true 1 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev idle3 : Fin 10 → grid3.Coords → Bool := fun | 0 => fun _ => false | 1 => fun _ => false | 2 => fun _ => false | 3 => fun _ => false | 4 => fun _ => false | 5 => fun _ => false | 6 => fun _ => false | 7 => fun _ => false | 8 => fun _ => false | 9 => fun i => !(k3_cond2 i == 1#1) | ⟨_ + 10, h⟩ => absurd h (Nat.not_lt.2 (Nat.le_add_left _ _))

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 212
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x10, .f32⟩
  | 10 => ⟨S10, .f32⟩
  | 11 => ⟨S1x600000, .i32⟩
  | 12 => ⟨S600000, .i32⟩
  | 13 => ⟨S1x600000, .i32⟩
  | 14 => ⟨S600000, .i32⟩
  | 15 => ⟨S50000x128, .f32⟩
  | 16 => ⟨S_, .f32⟩
  | 17 => ⟨S600000, .f32⟩
  | 18 => ⟨S_, .f32⟩
  | 19 => ⟨S50000, .f32⟩
  | 20 => ⟨S600000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000, .f32⟩
  | 44 => ⟨S600000, .f32⟩
  | 45 => ⟨S_, .i32⟩
  | 46 => ⟨S600000, .i32⟩
  | 47 => ⟨S600000, .i1⟩
  | 48 => ⟨S_, .i32⟩
  | 49 => ⟨S600000, .i32⟩
  | 50 => ⟨S600000, .i32⟩
  | 51 => ⟨S600000, .i32⟩
  | 52 => ⟨S600000x1, .i32⟩
  | 53 => ⟨S600000x128, .f32⟩
  | 54 => ⟨S600000x1, .f32⟩
  | 55 => ⟨S600000x128, .f32⟩
  | 56 => ⟨S600000x128, .f32⟩
  | 57 => ⟨S_, .f32⟩
  | 58 => ⟨S50000x128, .f32⟩
  | 59 => ⟨S600000x1, .i32⟩
  | 60 => ⟨S50000x128, .f32⟩
  | 61 => ⟨S_, .f32⟩
  | 62 => ⟨S50000, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .f32⟩
  | 76 => ⟨S600000, .f32⟩
  | 77 => ⟨S_, .f32⟩
  | 78 => ⟨S50000, .f32⟩
  | 79 => ⟨S600000x1, .i32⟩
  | 80 => ⟨S50000, .f32⟩
  | 81 => ⟨S_, .f32⟩
  | 82 => ⟨S50000, .f32⟩
  | 83 => ⟨S50000, .f32⟩
  | 84 => ⟨S50000, .f32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000, .f32⟩
  | 103 => ⟨S600000, .f32⟩
  | 104 => ⟨S_, .i32⟩
  | 105 => ⟨S600000, .i32⟩
  | 106 => ⟨S600000, .i1⟩
  | 107 => ⟨S_, .i32⟩
  | 108 => ⟨S600000, .i32⟩
  | 109 => ⟨S600000, .i32⟩
  | 110 => ⟨S600000, .i32⟩
  | 111 => ⟨S600000x1, .i32⟩
  | 112 => ⟨S600000x128, .f32⟩
  | 113 => ⟨S600000x1, .f32⟩
  | 114 => ⟨S600000x128, .f32⟩
  | 115 => ⟨S600000x128, .f32⟩
  | 116 => ⟨S_, .f32⟩
  | 117 => ⟨S50000x128, .f32⟩
  | 118 => ⟨S600000x1, .i32⟩
  | 119 => ⟨S50000x128, .f32⟩
  | 120 => ⟨S_, .f32⟩
  | 121 => ⟨S50000, .f32⟩
  | 122 => ⟨S50000, .f32⟩
  | 123 => ⟨S50000x1, .f32⟩
  | 124 => ⟨S50000x128, .f32⟩
  | 125 => ⟨S50000x128, .f32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S50000x128, .f32⟩
  | 6 => ⟨S_, .f32⟩
  | 7 => ⟨S600000, .f32⟩
  | 8 => ⟨S_, .f32⟩
  | 9 => ⟨S50000, .f32⟩
  | 10 => ⟨S600000x1, .i32⟩
  | 11 => ⟨S50000, .f32⟩
  | 12 => ⟨S_, .f32⟩
  | 13 => ⟨S50000, .f32⟩
  | 14 => ⟨S50000, .f32⟩
  | 15 => ⟨S50000, .f32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000, .f32⟩
  | 34 => ⟨S600000, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000x128, .f32⟩
  | 44 => ⟨S600000x1, .f32⟩
  | 45 => ⟨S600000x128, .f32⟩
  | 46 => ⟨S600000x128, .f32⟩
  | 47 => ⟨S_, .f32⟩
  | 48 => ⟨S50000x128, .f32⟩
  | 49 => ⟨S600000x1, .i32⟩
  | 50 => ⟨S50000x128, .f32⟩
  | 51 => ⟨S_, .f32⟩
  | 52 => ⟨S50000, .f32⟩
  | 53 => ⟨S50000, .f32⟩
  | 54 => ⟨S50000x1, .f32⟩
  | 55 => ⟨S50000x128, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S_, .f32⟩
  | 65 => ⟨S64x128, .f32⟩
  | 66 => ⟨S50000x1, .i32⟩
  | 67 => ⟨S64x128, .f32⟩
  | 68 => ⟨S_, .f32⟩
  | 69 => ⟨S50000, .f32⟩
  | 70 => ⟨S_, .f32⟩
  | 71 => ⟨S64, .f32⟩
  | 72 => ⟨S50000x1, .i32⟩
  | 73 => ⟨S64, .f32⟩
  | 74 => ⟨S_, .f32⟩
  | 75 => ⟨S64, .f32⟩
  | 76 => ⟨S64, .f32⟩
  | 77 => ⟨S64x1, .f32⟩
  | 78 => ⟨S64x128, .f32⟩
  | 79 => ⟨S64x128, .f32⟩
  | 80 => ⟨S64x10, .f32⟩
  | 81 => ⟨S1x10, .f32⟩
  | 82 => ⟨S64x10, .f32⟩
  | 83 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call0_cst : Ref sig .tc := ⟨.hbm, 71, rfl⟩
abbrev main_call0_v0 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_19 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call1_cst : Ref sig .tc := ⟨.hbm, 130, rfl⟩
abbrev main_call1_v0 : Ref sig .tc := ⟨.hbm, 131, rfl⟩
abbrev main_v95 : Ref sig .tc := ⟨.hbm, 132, rfl⟩
abbrev main_v96 : Ref sig .tc := ⟨.hbm, 133, rfl⟩
abbrev main_cst_20 : Ref sig .tc := ⟨.hbm, 134, rfl⟩
abbrev main_v97 : Ref sig .tc := ⟨.hbm, 135, rfl⟩
abbrev main_cst_21 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_22 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_23 : Ref sig .tc := ⟨.hbm, 144, rfl⟩
abbrev main_v104 : Ref sig .tc := ⟨.hbm, 145, rfl⟩
abbrev main_v105 : Ref sig .tc := ⟨.hbm, 146, rfl⟩
abbrev main_c_24 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_c_25 : Ref sig .tc := ⟨.hbm, 153, rfl⟩
abbrev main_v111 : Ref sig .tc := ⟨.hbm, 154, rfl⟩
abbrev main_v112 : Ref sig .tc := ⟨.hbm, 155, rfl⟩
abbrev main_c_26 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_c_27 : Ref sig .tc := ⟨.hbm, 163, rfl⟩
abbrev main_v119 : Ref sig .tc := ⟨.hbm, 164, rfl⟩
abbrev main_v120 : Ref sig .tc := ⟨.hbm, 165, rfl⟩
abbrev main_c_28 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_29 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_30 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_call2_cst : Ref sig .tc := ⟨.hbm, 189, rfl⟩
abbrev main_call2_v0 : Ref sig .tc := ⟨.hbm, 190, rfl⟩
abbrev main_v141 : Ref sig .tc := ⟨.hbm, 191, rfl⟩
abbrev main_cst_31 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_cst_32 : Ref sig .tc := ⟨.hbm, 196, rfl⟩
abbrev main_v145 : Ref sig .tc := ⟨.hbm, 197, rfl⟩
abbrev main_cst_33 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_cst_34 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.K.Reg0.lean ====
import proofs.«409879_j3573412790605_2_alg».proof.Proof.Gen.Kernel.Launch
import proofs.«409879_j3573412790605_2_alg».proof.Proof.Gen.Kernel.Skeleton
import proofs.«409879_j3573412790605_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x1 := Rect.unit (s := S5000x1) ![0, 0] S5000x1.size inb_S5000x1_S5000x1_0_0

def out0_3 (x0 : Vec F S5000x128 .f32) (x1 : Vec F S128x128 .f32) : Vec F S5000x128 .f32 :=
  View.canon [⟨r0_0, k0_pay1 (View.ld x0 r0_0) (View.ld x1 r0_1)⟩]

def out0_4 (x0 : Vec F S5000x128 .f32) (x1 : Vec F S128x128 .f32) (x2 : Vec F S5000x1 .f32) : Vec F S5000x128 .f32 :=
  View.canon [⟨r0_0, k0_pay2 (View.ld x0 r0_0) (View.ld x1 r0_1) (View.ld x2 r0_2)⟩]

-- The rectangle of full extent at offset zero contains every index.
theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x1 .f32) (harg3 : arg3.IsWhole) (arg4 : Memref sig .tc .vmem S5000x128 .f32) (harg4 : arg4.IsWhole) (arg5 : Memref sig .tc .vmem S5000x128 .f32) (harg5 : arg5.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__matmul_scaled_kernel i arg1 harg1 arg2 harg2 arg3 harg3 arg4 harg4 arg5 harg5) K := by
  simp only [cc0__matmul_scaled_kernel_eq_skeleton]; unfold cc0__matmul_scaled_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover0_3 _)
  iexists _; isplitr
  swap; · iexact H4
  ipureintro
  try dsimp only
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

theorem sound_body0 (c : Dev nD) (t : Fin cfg0.N) :
    iprop((dat0 V c).Φ t.castSucc ∗ (dat0 V c).owesAt () t.castSucc
        ∗ bigSep Finset.univ fun w : Fin cfg0.W => iprop(∃ d, owns (c : Thread nD τ) ((cfg0.win w).stage (cfg0.slots t w)) fullShare ((dat0 V c).before w t d)))
      ⊢ wp frame (wpE (defs₀ (F := F)) Variants.none c none) Set.univ (bodyAt0 t) fun _ =>
          iprop((dat0 V c).Φ t.succ ∗ (dat0 V c).owesAt () t.succ
            ∗ bigSep Finset.univ fun w : Fin cfg0.W => owns (c : Thread nD τ) ((cfg0.win w).stage (cfg0.slots t w)) fullShare ((dat0 V c).after w t)) := by
  rw [bigSep_W0, bigSep_W0]
  simp only [before0_0, before0_1, before0_2]
  rw [show (dat0 V c).Φ t.succ = (dat0 V c).Φ t.castSucc from rfl,
    show (dat0 V c).owesAt () t.succ = (dat0 V c).owesAt () t.castSucc from rfl,
    after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ :=
  fun t => sound_body0 V c t

end Cert.Kernel.Hand
-- ==== Proof.K.Reg1.lean ====
import proofs.«409879_j3573412790605_2_alg».proof.Proof.Gen.Kernel.Launch
import proofs.«409879_j3573412790605_2_alg».proof.Proof.Gen.Kernel.Skeleton
import proofs.«409879_j3573412790605_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S2000x1 := Rect.unit (s := S2000x1) ![0, 0] S2000x1.size inb_S2000x1_S2000x1_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0

def out1_6 (x0 : Vec F S2000x128 .f32) (x1 : Vec F S2000x128 .f32) (x2 : Vec F S2000x1 .f32) (x3 : Vec F S2000x1 .f32) (x4 : Vec F S1x128 .f32) (x5 : Vec F S128x128 .f32) : Vec F S2000x128 .f32 :=
  View.canon [⟨r1_0, k1_pay1 (View.ld x0 r1_0) (View.ld x2 r1_1) (View.ld x1 r1_0) (View.ld x3 r1_1) (View.ld x4 r1_2) (View.ld x5 r1_3)⟩]

def out1_7 (x0 : Vec F S2000x128 .f32) (x1 : Vec F S2000x128 .f32) (x2 : Vec F S2000x1 .f32) (x3 : Vec F S2000x1 .f32) (x4 : Vec F S1x128 .f32) (x5 : Vec F S128x128 .f32) : Vec F S2000x128 .f32 :=
  View.canon [⟨r1_0, k1_pay2 (View.ld x0 r1_0) (View.ld x2 r1_1) (View.ld x1 r1_0) (View.ld x3 r1_1) (View.ld x4 r1_2) (View.ld x5 r1_3) (View.ld x2 r1_1)⟩]

-- The rectangle of full extent at offset zero contains every index.
theorem cover1_6 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

set_option maxHeartbeats 4000000 in
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S2000x1 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S2000x128 .f32) (harg7 : arg7.IsWhole) (arg8 : Memref sig .tc .vmem S2000x128 .f32) (harg8 : arg8.IsWhole)
    (x0 : Vec F S2000x128 .f32) (x1 : Vec F S2000x128 .f32) (x2 : Vec F S2000x1 .f32) (x3 : Vec F S2000x1 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__combine_matmul_kernel i arg1 harg1 arg2 harg2 arg3 harg3 arg4 harg4 arg5 harg5 arg6 harg6 arg7 harg7 arg8 harg8) K := by
  simp only [cc1__combine_matmul_kernel_eq_skeleton]; unfold cc1__combine_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  iexists _; isplitr
  swap; · iexact H7
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

set_option maxHeartbeats 1000000 in
theorem sound_body1 (c : Dev nD) (t : Fin cfg1.N) :
    iprop((dat1 V c).Φ t.castSucc ∗ (dat1 V c).owesAt () t.castSucc
        ∗ bigSep Finset.univ fun w : Fin cfg1.W => iprop(∃ d, owns (c : Thread nD τ) ((cfg1.win w).stage (cfg1.slots t w)) fullShare ((dat1 V c).before w t d)))
      ⊢ wp frame (wpE (defs₀ (F := F)) Variants.none c none) Set.univ (bodyAt1 t) fun _ =>
          iprop((dat1 V c).Φ t.succ ∗ (dat1 V c).owesAt () t.succ
            ∗ bigSep Finset.univ fun w : Fin cfg1.W => owns (c : Thread nD τ) ((cfg1.win w).stage (cfg1.slots t w)) fullShare ((dat1 V c).after w t)) := by
  rw [bigSep_W1, bigSep_W1]
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ :=
  fun t => sound_body1 V c t

end Cert.Kernel.Hand
-- ==== Proof.K.Reg2.lean ====
import proofs.«409879_j3573412790605_2_alg».proof.Proof.Gen.Kernel.Launch
import proofs.«409879_j3573412790605_2_alg».proof.Proof.Gen.Kernel.Skeleton
import proofs.«409879_j3573412790605_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S2000x1 := Rect.unit (s := S2000x1) ![0, 0] S2000x1.size inb_S2000x1_S2000x1_0_0
abbrev r2_2 : Rect S1x128 := Rect.unit (s := S1x128) ![0, 0] S1x128.size inb_S1x128_S1x128_0_0
abbrev r2_3 : Rect S128x128 := Rect.unit (s := S128x128) ![0, 0] S128x128.size inb_S128x128_S128x128_0_0

def out2_6 (x0 : Vec F S2000x128 .f32) (x1 : Vec F S2000x128 .f32) (x2 : Vec F S2000x1 .f32) (x3 : Vec F S2000x1 .f32) (x4 : Vec F S1x128 .f32) (x5 : Vec F S128x128 .f32) : Vec F S2000x128 .f32 :=
  View.canon [⟨r2_0, k2_pay1 (View.ld x0 r2_0) (View.ld x2 r2_1) (View.ld x1 r2_0) (View.ld x3 r2_1) (View.ld x4 r2_2) (View.ld x5 r2_3)⟩]

def out2_7 (x0 : Vec F S2000x128 .f32) (x1 : Vec F S2000x128 .f32) (x2 : Vec F S2000x1 .f32) (x3 : Vec F S2000x1 .f32) (x4 : Vec F S1x128 .f32) (x5 : Vec F S128x128 .f32) : Vec F S2000x128 .f32 :=
  View.canon [⟨r2_0, k2_pay2 (View.ld x0 r2_0) (View.ld x2 r2_1) (View.ld x1 r2_0) (View.ld x3 r2_1) (View.ld x4 r2_2) (View.ld x5 r2_3) (View.ld x2 r2_1)⟩]

-- The rectangle of full extent at offset zero contains every index.
theorem cover2_6 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 4000000 in
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S2000x1 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S2000x128 .f32) (harg7 : arg7.IsWhole) (arg8 : Memref sig .tc .vmem S2000x128 .f32) (harg8 : arg8.IsWhole)
    (x0 : Vec F S2000x128 .f32) (x1 : Vec F S2000x128 .f32) (x2 : Vec F S2000x1 .f32) (x3 : Vec F S2000x1 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__combine_matmul_kernel i arg1 harg1 arg2 harg2 arg3 harg3 arg4 harg4 arg5 harg5 arg6 harg6 arg7 harg7 arg8 harg8) K := by
  simp only [cc2__combine_matmul_kernel_eq_skeleton]; unfold cc2__combine_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_6 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

set_option maxHeartbeats 1000000 in
theorem sound_body2 (c : Dev nD) (t : Fin cfg2.N) :
    iprop((dat2 V c).Φ t.castSucc ∗ (dat2 V c).owesAt () t.castSucc
        ∗ bigSep Finset.univ fun w : Fin cfg2.W => iprop(∃ d, owns (c : Thread nD τ) ((cfg2.win w).stage (cfg2.slots t w)) fullShare ((dat2 V c).before w t d)))
      ⊢ wp frame (wpE (defs₀ (F := F)) Variants.none c none) Set.univ (bodyAt2 t) fun _ =>
          iprop((dat2 V c).Φ t.succ ∗ (dat2 V c).owesAt () t.succ
            ∗ bigSep Finset.univ fun w : Fin cfg2.W => owns (c : Thread nD τ) ((cfg2.win w).stage (cfg2.slots t w)) fullShare ((dat2 V c).after w t)) := by
  rw [bigSep_W2, bigSep_W2]
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ :=
  fun t => sound_body2 V c t

end Cert.Kernel.Hand
-- ==== Proof.K.Reg3.lean ====
import proofs.«409879_j3573412790605_2_alg».proof.Proof.Gen.Kernel.Launch
import proofs.«409879_j3573412790605_2_alg».proof.Proof.Gen.Kernel.Skeleton
import proofs.«409879_j3573412790605_2_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1
abbrev cond3_1 (i : grid3.Coords) : Prop := k3_cond2 i = 1#1

-- The body's first condition holds at the first grid point only, its second at the last only.
theorem hcond3_0 : ∀ t : Fin cfg3.N, cond3_0 (grid3.coords t) ↔ t.val = 0 :=
  (by decide +kernel : ∀ t : Fin grid3.N, cond3_0 (grid3.coords t) ↔ t.val = 0)
theorem hcond3_1 : ∀ t : Fin cfg3.N, cond3_1 (grid3.coords t) ↔ t.val = 24 :=
  (by decide +kernel : ∀ t : Fin grid3.N, cond3_1 (grid3.coords t) ↔ t.val = 24)

theorem idle3_9 : ∀ t : Fin cfg3.N, t.val ≠ 24 → cfg3.idle 9 (grid3.coords t) = true ∧ (cfg3.win 9).flush t = false := by decide +kernel
theorem live3_9 : ∀ t : Fin cfg3.N, t.val = 24 → cfg3.idle 9 (grid3.coords t) = false := by decide +kernel

abbrev ms3_0 (t : Fin cfg3.N) : Memref sig .tc .vmem S2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2000x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2000x1 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S2000x1 .i32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S64x1 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S128x10 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S1x10 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S64x10 .f32 := win3_9.stage (cfg3.slots t 9)
abbrev hs3_9 (t : Fin cfg3.N) : (ms3_9 t).IsWhole := hstage3_9 ((cfg3.slots t 9).cast nbuf3_9)
abbrev scM3_0 : Memref sig .tc .vmem S64x128 .f32 := Memref.whole cc3_scratch0

theorem PhiA3_eq (c : Dev nD) :
    (Pipeline.ΦA spec3 c : sProp 𝕄)
      = iprop(iprop(iprop((∃ d, owns (c : Thread nD τ) scM3_0 fullShare d)) ∗ Pipeline.scopedRestBut spec3 c [cc3_scratch0]) ∗ (∃ r, prngReg c r)) := by
  unfold Pipeline.ΦA; rw [scopedRest3_split]; simp only [scM3_0, owns_whole]; try rfl

-- Reading through a whole memref is a bijection, so owning it at X is holding the one raw contents that read X.
theorem owns_eq_unread (c : Dev nD) {sp : Space} {sh : Shape} {e : EltTy} {m : Memref sig .tc sp sh e} (h : m.IsWhole) (q : PosShare TreeShare) (X : sh.Idx → Elt F e) :
    (owns (c : Thread nD τ) m q X : sProp 𝕄) = (m.view.loc (c : Thread nD τ) ↦[m.view.set]{q} h.unread X) := by
  rw [owns_eq_rep, h.eq_unread (View.read_rep _ _)]

section
variable (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S2000x1 .f32) (harg4 : arg4.IsWhole) (arg5 : Memref sig .tc .vmem S1x128 .f32) (harg5 : arg5.IsWhole) (arg6 : Memref sig .tc .vmem S2000x1 .i32) (harg6 : arg6.IsWhole) (arg7 : Memref sig .tc .vmem S64x1 .f32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole)
  (x0 : Vec F S2000x128 .f32) (x1 : Vec F S2000x128 .f32) (x2 : Vec F S2000x1 .f32) (x3 : Vec F S2000x1 .f32) (x4 : Vec F S1x128 .f32) (x5 : Vec F S2000x1 .i32) (x6 : Vec F S64x1 .f32) (x7 : Vec F S128x10 .f32) (x8 : Vec F S1x10 .f32)

-- The nine inputs held at their contents, beside R.
def ins3 (R : sProp 𝕄) : sProp 𝕄 := iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ R)

-- The body's triple in each of the three cases of its two conditions; the pieces it stores are found by the run.
set_option maxHeartbeats 4000000 in
noncomputable def kernelRun3_A (hc0 : cond3_0 i) (hc1 : ¬cond3_1 i) :
    Σ' (L9 : List (View.Piece (Elt F) S64x10 .f32)), { LS0 : List (View.Piece (Elt F) S64x128 .f32) //
      ∀ (xi9 : Vec F S64x10 .f32) (E : Set ℕ) (K : PUnit → sProp 𝕄),
        ins3 c arg1 arg2 arg3 arg4 arg5 arg6 arg7 arg8 arg9 x0 x1 x2 x3 x4 x5 x6 x7 x8 iprop(owns (c : Thread nD τ) arg10 fullShare xi9 ∗ (∃ d, owns (c : Thread nD τ) arg11 fullShare d)
            ∗ (ins3 c arg1 arg2 arg3 arg4 arg5 arg6 arg7 arg8 arg9 x0 x1 x2 x3 x4 x5 x6 x7 x8 iprop(owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc3__pool_fc_kernel i arg1 harg1 arg2 harg2 arg3 harg3 arg4 harg4 arg5 harg5 arg6 harg6 arg7 harg7 arg8 harg8 arg9 harg9 arg10 harg10 arg11 harg11) K } := by
  refine ⟨[], ?_, fun xi9 E K => ?run⟩
  case run =>
    simp only [cc3__pool_fc_kernel_eq_skeleton]; unfold cc3__pool_fc_kernel_skel
    simp only [k3_part1_eq_skeleton]
    unfold ins3
    simp only [owns_eq_unread c harg1, owns_eq_unread c harg2, owns_eq_unread c harg3, owns_eq_unread c harg4, owns_eq_unread c harg5, owns_eq_unread c harg6, owns_eq_unread c harg7, owns_eq_unread c harg8, owns_eq_unread c harg9, owns_eq_unread c harg10]
    unfold owns
    iintro ⟨H0, H1, H2, H3, H4, H5, H6, H7, H8, H9, ⟨%ds0, %fs0, -, HS0⟩, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact HS0

set_option maxHeartbeats 4000000 in
noncomputable def kernelRun3_B (hc0 : ¬cond3_0 i) (hc1 : ¬cond3_1 i) (xs0 : Vec F S64x128 .f32) :
    Σ' (L9 : List (View.Piece (Elt F) S64x10 .f32)), { LS0 : List (View.Piece (Elt F) S64x128 .f32) //
      ∀ (xi9 : Vec F S64x10 .f32) (E : Set ℕ) (K : PUnit → sProp 𝕄),
        ins3 c arg1 arg2 arg3 arg4 arg5 arg6 arg7 arg8 arg9 x0 x1 x2 x3 x4 x5 x6 x7 x8 iprop(owns (c : Thread nD τ) arg10 fullShare xi9 ∗ owns (c : Thread nD τ) arg11 fullShare xs0
            ∗ (ins3 c arg1 arg2 arg3 arg4 arg5 arg6 arg7 arg8 arg9 x0 x1 x2 x3 x4 x5 x6 x7 x8 iprop(owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc3__pool_fc_kernel i arg1 harg1 arg2 harg2 arg3 harg3 arg4 harg4 arg5 harg5 arg6 harg6 arg7 harg7 arg8 harg8 arg9 harg9 arg10 harg10 arg11 harg11) K } := by
  refine ⟨[], ?_, fun xi9 E K => ?run⟩
  case run =>
    simp only [cc3__pool_fc_kernel_eq_skeleton]; unfold cc3__pool_fc_kernel_skel
    simp only [k3_part1_eq_skeleton]
    unfold ins3
    simp only [owns_eq_unread c harg1, owns_eq_unread c harg2, owns_eq_unread c harg3, owns_eq_unread c harg4, owns_eq_unread c harg5, owns_eq_unread c harg6, owns_eq_unread c harg7, owns_eq_unread c harg8, owns_eq_unread c harg9, owns_eq_unread c harg10, owns_eq_unread c harg11]
    iintro ⟨H0, H1, H2, H3, H4, H5, H6, H7, H8, H9, HS0, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact HS0

set_option maxHeartbeats 4000000 in
noncomputable def kernelRun3_C (hc0 : ¬cond3_0 i) (hc1 : cond3_1 i) (xs0 : Vec F S64x128 .f32) :
    Σ' (L9 : List (View.Piece (Elt F) S64x10 .f32)), { LS0 : List (View.Piece (Elt F) S64x128 .f32) //
      ∀ (E : Set ℕ) (K : PUnit → sProp 𝕄),
        ins3 c arg1 arg2 arg3 arg4 arg5 arg6 arg7 arg8 arg9 x0 x1 x2 x3 x4 x5 x6 x7 x8 iprop((∃ d, owns (c : Thread nD τ) arg10 fullShare d) ∗ owns (c : Thread nD τ) arg11 fullShare xs0
            ∗ (ins3 c arg1 arg2 arg3 arg4 arg5 arg6 arg7 arg8 arg9 x0 x1 x2 x3 x4 x5 x6 x7 x8 iprop((∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc3__pool_fc_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc3__pool_fc_kernel_eq_skeleton]; unfold cc3__pool_fc_kernel_skel
    simp only [k3_part1_eq_skeleton]
    unfold ins3
    simp only [owns_eq_unread c harg1, owns_eq_unread c harg2, owns_eq_unread c harg3, owns_eq_unread c harg4, owns_eq_unread c harg5, owns_eq_unread c harg6, owns_eq_unread c harg7, owns_eq_unread c harg8, owns_eq_unread c harg9, owns_eq_unread c harg11]
    unfold owns
    iintro ⟨H0, H1, H2, H3, H4, H5, H6, H7, H8, ⟨%d9, %f9, -, H9⟩, HS0, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact HS0

-- Each case's pieces tile their shape, so they cover it.
theorem scover3_A (hc0 : cond3_0 i) (hc1 : ¬cond3_1 i) : ∀ y : S64x128.Idx, ∃ pc ∈ (kernelRun3_A c i arg1 harg1 arg2 harg2 arg3 harg3 arg4 harg4 arg5 harg5 arg6 harg6 arg7 harg7 arg8 harg8 arg9 harg9 arg10 harg10 arg11 harg11 x0 x1 x2 x3 x4 x5 x6 x7 x8 hc0 hc1).2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 x0 x1 x2 x3 x4 x5 x6 x7 x8 hc0 hc1).2.1 S64x128.size (by sl_kernel_rfl)
theorem scover3_B (hc0 : ¬cond3_0 i) (hc1 : ¬cond3_1 i) (xs0 : Vec F S64x128 .f32) : ∀ y : S64x128.Idx, ∃ pc ∈ (kernelRun3_B c i arg1 harg1 arg2 harg2 arg3 harg3 arg4 harg4 arg5 harg5 arg6 harg6 arg7 harg7 arg8 harg8 arg9 harg9 arg10 harg10 arg11 harg11 x0 x1 x2 x3 x4 x5 x6 x7 x8 hc0 hc1 xs0).2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 x0 x1 x2 x3 x4 x5 x6 x7 x8 hc0 hc1 xs0).2.1 S64x128.size (by sl_kernel_rfl)
theorem scover3_C (hc0 : ¬cond3_0 i) (hc1 : cond3_1 i) (xs0 : Vec F S64x128 .f32) : ∀ y : S64x128.Idx, ∃ pc ∈ (kernelRun3_C c i arg1 harg1 arg2 harg2 arg3 harg3 arg4 harg4 arg5 harg5 arg6 harg6 arg7 harg7 arg8 harg8 arg9 harg9 arg10 harg10 arg11 harg11 x0 x1 x2 x3 x4 x5 x6 x7 x8 hc0 hc1 xs0).2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 x0 x1 x2 x3 x4 x5 x6 x7 x8 hc0 hc1 xs0).2.1 S64x128.size (by sl_kernel_rfl)
theorem cover3_C (hc0 : ¬cond3_0 i) (hc1 : cond3_1 i) (xs0 : Vec F S64x128 .f32) : ∀ y : S64x10.Idx, ∃ pc ∈ (kernelRun3_C c i arg1 harg1 arg2 harg2 arg3 harg3 arg4 harg4 arg5 harg5 arg6 harg6 arg7 harg7 arg8 harg8 arg9 harg9 arg10 harg10 arg11 harg11 x0 x1 x2 x3 x4 x5 x6 x7 x8 hc0 hc1 xs0).1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 x0 x1 x2 x3 x4 x5 x6 x7 x8 hc0 hc1 xs0).1 S64x10.size (by sl_kernel_rfl)

end

section
variable (c : Dev nD) (t : Fin cfg3.N)

-- The three cases' runs instantiated at grid point t.
def runA (h0 : t.val = 0) :=
  kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) (iblk3 V c 0 t) (iblk3 V c 1 t) (iblk3 V c 2 t) (iblk3 V c 3 t) (iblk3 V c 4 t) (iblk3 V c 5 t) (iblk3 V c 6 t) (iblk3 V c 7 t) (iblk3 V c 8 t) ((hcond3_0 t).mpr h0) (fun h => by have := (hcond3_1 t).mp h; omega)
def runB (h0 : t.val ≠ 0) (h1 : t.val ≠ 24) (xs0 : Vec F S64x128 .f32) :=
  kernelRun3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) (iblk3 V c 0 t) (iblk3 V c 1 t) (iblk3 V c 2 t) (iblk3 V c 3 t) (iblk3 V c 4 t) (iblk3 V c 5 t) (iblk3 V c 6 t) (iblk3 V c 7 t) (iblk3 V c 8 t) (fun h => h0 ((hcond3_0 t).mp h)) (fun h => h1 ((hcond3_1 t).mp h)) xs0
def runC (h1 : t.val = 24) (xs0 : Vec F S64x128 .f32) :=
  kernelRun3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) (iblk3 V c 0 t) (iblk3 V c 1 t) (iblk3 V c 2 t) (iblk3 V c 3 t) (iblk3 V c 4 t) (iblk3 V c 5 t) (iblk3 V c 6 t) (iblk3 V c 7 t) (iblk3 V c 8 t) (fun h => by have := (hcond3_0 t).mp h; omega) ((hcond3_1 t).mpr h1) xs0

end

-- The canonical contents of the pieces stored at point n (the output's, the accumulator's), by recursion on n through the accumulator.
def outsAt3 (c : Dev nD) : (n : ℕ) → n < cfg3.N → Vec F S64x10 .f32 × Vec F S64x128 .f32
  | 0, hn => (View.canon (runA V c ⟨0, hn⟩ rfl).1, View.canon (runA V c ⟨0, hn⟩ rfl).2.1)
  | n + 1, hn =>
    if h1 : n + 1 = 24 then
      (View.canon (runC V c ⟨n + 1, hn⟩ h1 (outsAt3 c n (Nat.lt_of_succ_lt hn)).2).1, View.canon (runC V c ⟨n + 1, hn⟩ h1 (outsAt3 c n (Nat.lt_of_succ_lt hn)).2).2.1)
    else
      (View.canon (runB V c ⟨n + 1, hn⟩ (Nat.succ_ne_zero n) h1 (outsAt3 c n (Nat.lt_of_succ_lt hn)).2).1, View.canon (runB V c ⟨n + 1, hn⟩ (Nat.succ_ne_zero n) h1 (outsAt3 c n (Nat.lt_of_succ_lt hn)).2).2.1)

theorem outsAt3_A (c : Dev nD) (t : Fin cfg3.N) (h0 : t.val = 0) :
    outsAt3 V c t.val t.isLt = (View.canon (runA V c t h0).1, View.canon (runA V c t h0).2.1) := by
  obtain ⟨n, hn⟩ := t
  cases n with
  | zero => rfl
  | succ n => exact absurd h0 (Nat.succ_ne_zero n)

theorem outsAt3_B (c : Dev nD) (t : Fin cfg3.N) (h0 : t.val ≠ 0) (h1 : t.val ≠ 24) :
    outsAt3 V c t.val t.isLt = (View.canon (runB V c t h0 h1 (outsAt3 V c (t.val - 1) (Nat.lt_of_le_of_lt (Nat.sub_le _ _) t.isLt)).2).1, View.canon (runB V c t h0 h1 (outsAt3 V c (t.val - 1) (Nat.lt_of_le_of_lt (Nat.sub_le _ _) t.isLt)).2).2.1) := by
  obtain ⟨n, hn⟩ := t
  cases n with
  | zero => exact absurd rfl h0
  | succ n => exact (dif_neg h1).trans rfl

theorem outsAt3_C (c : Dev nD) (t : Fin cfg3.N) (h1 : t.val = 24) :
    outsAt3 V c t.val t.isLt = (View.canon (runC V c t h1 (outsAt3 V c (t.val - 1) (Nat.lt_of_le_of_lt (Nat.sub_le _ _) t.isLt)).2).1, View.canon (runC V c t h1 (outsAt3 V c (t.val - 1) (Nat.lt_of_le_of_lt (Nat.sub_le _ _) t.isLt)).2).2.1) := by
  obtain ⟨n, hn⟩ := t
  cases n with
  | zero => exact absurd h1 (by show ¬ (0 : ℕ) = 24; decide)
  | succ n => exact (dif_pos h1).trans rfl

-- The invariant before position n: the entry invariant at 0, afterwards the accumulator owned at the previous point's value.
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ Pipeline.scopedRestBut spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Pipeline.scopedRestBut spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_9 (c : Dev nD) (t : Fin cfg3.N) : (dat3 V c).after 9 t = (outsAt3 V c t.val t.isLt).1 := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d
theorem before3_5 (c : Dev nD) (t : Fin cfg3.N) (d) : (dat3 V c).before 5 t d = iblk3 V c 5 t :=
  (dat3 V c).before_in_eq_fetched 5 rfl (fun _ => rfl) (fun _ _ _ => rfl) (fun _ => rfl) t d
theorem before3_6 (c : Dev nD) (t : Fin cfg3.N) (d) : (dat3 V c).before 6 t d = iblk3 V c 6 t :=
  (dat3 V c).before_in_eq_fetched 6 rfl (fun _ => rfl) (fun _ _ _ => rfl) (fun _ => rfl) t d
theorem before3_7 (c : Dev nD) (t : Fin cfg3.N) (d) : (dat3 V c).before 7 t d = iblk3 V c 7 t :=
  (dat3 V c).before_in_eq_fetched 7 rfl (fun _ => rfl) (fun _ _ _ => rfl) (fun _ => rfl) t d
theorem before3_8 (c : Dev nD) (t : Fin cfg3.N) (d) : (dat3 V c).before 8 t d = iblk3 V c 8 t :=
  (dat3 V c).before_in_eq_fetched 8 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d)))

def bodyPost3 (c : Dev nD) (t : Fin cfg3.N) : sProp 𝕄 :=
  iprop((dat3 V c).Φ t.succ ∗ (dat3 V c).owesAt () t.succ
    ∗ owns (c : Thread nD τ) (ms3_0 t) fullShare (iblk3 V c 0 t)
    ∗ owns (c : Thread nD τ) (ms3_1 t) fullShare (iblk3 V c 1 t)
    ∗ owns (c : Thread nD τ) (ms3_2 t) fullShare (iblk3 V c 2 t)
    ∗ owns (c : Thread nD τ) (ms3_3 t) fullShare (iblk3 V c 3 t)
    ∗ owns (c : Thread nD τ) (ms3_4 t) fullShare (iblk3 V c 4 t)
    ∗ owns (c : Thread nD τ) (ms3_5 t) fullShare (iblk3 V c 5 t)
    ∗ owns (c : Thread nD τ) (ms3_6 t) fullShare (iblk3 V c 6 t)
    ∗ owns (c : Thread nD τ) (ms3_7 t) fullShare (iblk3 V c 7 t)
    ∗ owns (c : Thread nD τ) (ms3_8 t) fullShare (iblk3 V c 8 t)
    ∗ (dat3 V c).leavesExact 9 t)

-- The body at any point: its case's run, between the invariant before the point and the invariant after it.
set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).owesAt () t.succ = (dat3 V c).owesAt () t.castSucc from rfl]
  rw [show (dat3 V c).Φ t.succ = PhiS3 V c (t.val + 1) t.isLt from rfl, PhiS3_succ, PhiS3_castSucc V c t]
  by_cases h0 : t.val = 0
  · rw [Dat.leavesExact_idle (dat3 V c) 9 t (idle3_9 t (by omega)).1 (idle3_9 t (by omega)).2, outsAt3_A V c t h0, PhiS3_zero V c _ _ h0, PhiA3_eq]
    dsimp only
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA V c t h0).2.2 _ Set.univ _)
    unfold ins3
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    iintro ⟨H0, H1, H2, H3, H4, H5, H6, H7, H8, H9, ⟨%es0, HS0⟩⟩
    isplitl [HS0 HR Hg]
    · isplitl [HS0 HR]
      · isplitl [HS0]
        · unfold owns; iexists _; isplitr
          swap; · iexact HS0
          ipureintro; exact View.read_writes_eq_canon _ _ _ fun _ => scover3_A ..
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · rw [PhiS3_pos V c _ _ h0]
    by_cases h1 : t.val = 24
    · rw [show (dat3 V c).leavesExact 9 t = owns (c : Thread nD τ) (ms3_9 t) fullShare ((dat3 V c).after 9 t) from by
        unfold Dat.leavesExact; rw [live3_9 t h1], after3_9, outsAt3_C V c t h1]
      dsimp only
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runC V c t h1 _).2.2 Set.univ _)
      unfold ins3
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      iintro ⟨H0, H1, H2, H3, H4, H5, H6, H7, H8, ⟨%e9, H9⟩, ⟨%es0, HS0⟩⟩
      isplitl [HS0 HR Hg]
      · isplitl [HS0 HR]
        · isplitl [HS0]
          · unfold owns; iexists _; isplitr
            swap; · iexact HS0
            ipureintro; exact View.read_writes_eq_canon _ _ _ fun _ => scover3_C ..
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_eq_canon _ _ _ fun _ => cover3_C ..
    · rw [Dat.leavesExact_idle (dat3 V c) 9 t (idle3_9 t h1).1 (idle3_9 t h1).2, outsAt3_B V c t h0 h1]
      dsimp only
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB V c t h0 h1 _).2.2 _ Set.univ _)
      unfold ins3
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iintro ⟨H0, H1, H2, H3, H4, H5, H6, H7, H8, H9, ⟨%es0, HS0⟩⟩
      isplitl [HS0 HR Hg]
      · isplitl [HS0 HR]
        · isplitl [HS0]
          · unfold owns; iexists _; isplitr
            swap; · iexact HS0
            ipureintro; exact View.read_writes_eq_canon _ _ _ fun _ => scover3_B ..
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

-- Past position 0 the invariant entails the entry invariant: the accumulator's value is forgotten.
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

theorem hout3 (c : Dev nD) : (dat3 V c).Φ (Fin.last cfg3.N) ⊢ Pipeline.ΦA spec3 c :=
  Phi_out3 V c _ (by rw [Fin.val_last]; have : cfg3.N = 25 := N_3; omega)

end Cert.Kernel.Hand
end
-- ==== Proof.K.Run.lean ====
import proofs.«409879_j3573412790605_2_alg».proof.Proof.K.Reg0
import proofs.«409879_j3573412790605_2_alg».proof.Proof.K.Reg1
import proofs.«409879_j3573412790605_2_alg».proof.Proof.K.Reg2
import proofs.«409879_j3573412790605_2_alg».proof.Proof.K.Reg3
import proofs.«409879_j3573412790605_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Exit
variable {cfg : Cfg sig Λ₀} {c : Dev nD} (d : Dat τ (Elt F) Unit ℕ (UR sig nD τ) ℕ cfg c) (W : Valuation τ sig (Elt F))

-- The valuation after a region entered at `W`: its windows' arrays at their final contents, every other buffer as in `W`.
def exitVal : Valuation τ sig (Elt F) := Pipeline.withArrays cfg.spec c W fun w => d.arrAt w cfg.N
theorem exitVal_arr (hinj : Function.Injective (Pipeline.arrRef cfg.spec)) (w : Fin cfg.W) :
    exitVal d W (Proc.devRef .tc (Pipeline.arrRef cfg.spec w)) = d.arrAt w cfg.N :=
  Pipeline.withArrays_arr cfg.spec hinj c _ _ w
theorem exitVal_of_ne (b : Ref sig .tc) (hb : ∀ w, Pipeline.arrRef cfg.spec w ≠ b) :
    exitVal d W (Proc.devRef .tc b) = W (Proc.devRef .tc b) :=
  Pipeline.withArrays_of_ne cfg.spec c _ _ b hb
-- Only an output window's array can differ from `W` afterwards.
theorem exitVal_keep (hinj : Function.Injective (Pipeline.arrRef cfg.spec))
    (hA : ∀ w, d.A w = W (Proc.devRef .tc (Pipeline.arrRef cfg.spec w))) (b : Ref sig .tc)
    (h : ∀ w : Fin cfg.W, Pipeline.arrRef cfg.spec w = b → (cfg.win w).isOut = false) :
    exitVal d W (Proc.devRef .tc b) = W (Proc.devRef .tc b) := by
  by_cases hb : ∃ w, Pipeline.arrRef cfg.spec w = b
  · obtain ⟨w, rfl⟩ := hb
    rw [exitVal_arr d W hinj, d.arrAt_in w (h w rfl) _, hA]
  · exact exitVal_of_ne d W b fun w e => hb ⟨w, e⟩
end Exit

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) := exitVal (dat0 (V1 m ρ) c) (W1 m ρ c)
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) := exitVal (dat1 (V3 m ρ) c) (W3 m ρ c)
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) := exitVal (dat2 (V5 m ρ) c) (W5 m ρ c)
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 (c : Dev nD) : Valuation τ sig (Elt F) := exitVal (dat3 (V7 m ρ) c) (W7 m ρ c)

theorem W2_arr (c : Dev nD) (w : Fin cfg0.W) : W2 m ρ c (Proc.devRef .tc (Pipeline.arrRef spec0 w)) = (dat0 (V1 m ρ) c).arrAt w cfg0.N :=
  exitVal_arr (dat0 (V1 m ρ) c) _ launch0.win.arr_inj w
theorem W4_arr (c : Dev nD) (w : Fin cfg1.W) : W4 m ρ c (Proc.devRef .tc (Pipeline.arrRef spec1 w)) = (dat1 (V3 m ρ) c).arrAt w cfg1.N :=
  exitVal_arr (dat1 (V3 m ρ) c) _ launch1.win.arr_inj w
theorem W6_arr (c : Dev nD) (w : Fin cfg2.W) : W6 m ρ c (Proc.devRef .tc (Pipeline.arrRef spec2 w)) = (dat2 (V5 m ρ) c).arrAt w cfg2.N :=
  exitVal_arr (dat2 (V5 m ρ) c) _ launch2.win.arr_inj w
theorem W8_arr (c : Dev nD) (w : Fin cfg3.W) : W8 m ρ c (Proc.devRef .tc (Pipeline.arrRef spec3 w)) = (dat3 (V7 m ρ) c).arrAt w cfg3.N :=
  exitVal_arr (dat3 (V7 m ρ) c) _ launch3.win.arr_inj w

-- No host stretch after the first writes `b`, and it is no output array of the first three regions.
abbrev Quiet (b : Ref sig .tc) : Prop :=
  b ∉ hostOps1_W ∧ b ∉ hostOps2_W ∧ b ∉ hostOps3_W
  ∧ (∀ w : Fin cfg0.W, Pipeline.arrRef spec0 w = b → (cfg0.win w).isOut = false)
  ∧ (∀ w : Fin cfg1.W, Pipeline.arrRef spec1 w = b → (cfg1.win w).isOut = false)
  ∧ (∀ w : Fin cfg2.W, Pipeline.arrRef spec2 w = b → (cfg2.win w).isOut = false)
abbrev Carried (c : Dev nD) (b : Ref sig .tc) : Prop :=
  W2 m ρ c (Proc.devRef .tc b) = V1 m ρ c b ∧ V3 m ρ c b = V1 m ρ c b ∧ W4 m ρ c (Proc.devRef .tc b) = V1 m ρ c b
  ∧ V5 m ρ c b = V1 m ρ c b ∧ W6 m ρ c (Proc.devRef .tc b) = V1 m ρ c b ∧ V7 m ρ c b = V1 m ρ c b
-- Such a buffer holds at every later boundary what the first host stretch left in it.
theorem quiet (c : Dev nD) (b : Ref sig .tc) (h : Quiet b) : Carried m ρ c b := by
  have e2 := exitVal_keep (dat0 (V1 m ρ) c) (W1 m ρ c) launch0.win.arr_inj (A_eq0 (V1 m ρ) c) b h.2.2.2.1
  have e3 := (StableHlo.after_of_writes_sub hostOps1 _ hostOps1_writes h.1).trans e2
  have e4 := (exitVal_keep (dat1 (V3 m ρ) c) (W3 m ρ c) launch1.win.arr_inj (A_eq1 (V3 m ρ) c) b h.2.2.2.2.1).trans e3
  have e5 := (StableHlo.after_of_writes_sub hostOps2 _ hostOps2_writes h.2.1).trans e4
  have e6 := (exitVal_keep (dat2 (V5 m ρ) c) (W5 m ρ c) launch2.win.arr_inj (A_eq2 (V5 m ρ) c) b h.2.2.2.2.2).trans e5
  exact ⟨e2, e3, e4, e5, e6, (StableHlo.after_of_writes_sub hostOps3 _ hostOps3_writes h.2.2.1).trans e6⟩

abbrev Kept (b : Ref sig .tc) : Prop :=
  b ∉ hostOps0_W ∧ Quiet b ∧ ∀ w : Fin cfg3.W, Pipeline.arrRef spec3 w = b → (cfg3.win w).isOut = false
theorem W8_carry (c : Dev nD) (b : Ref sig .tc) (h : Kept b) : W8 m ρ c (Proc.devRef .tc b) = m ((c : Thread nD τ).loc b) :=
  (exitVal_keep (dat3 (V7 m ρ) c) (W7 m ρ c) launch3.win.arr_inj (A_eq3 (V7 m ρ) c) b h.2.2).trans <| (quiet m ρ c b h.2.1).2.2.2.2.2.trans <|
  (StableHlo.after_of_writes_sub hostOps0 _ hostOps0_writes h.1).trans rfl

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Region
variable (pd : (p : Fin 4) → (c : Dev nD) → Dat τ (Elt F) Unit ℕ (UR sig nD τ) ℕ (Pipeline.pin (pcfgs (F := F)) adm p) c)

set_option backward.isDefEq.respectTransparency.types false in
-- One kernel region as an item of the program's run, from its proof data and the facts the run needs of them.
def reg (p : Fin 4) (lf : Pipeline.LaunchFacts (nD := nD) (τ := τ) cfgs p) (W : Dev nD → Valuation τ sig (Elt F))
    (hK : IsEmpty (Fin (pcfgs (F := F) p).pre.K))
    (hq : ∀ c w, (pd p c).q w = fullShare) (hz : ∀ c t, (pd p c).owed t = 0) (hr : ∀ c x, x ∈ (pd p c).recorded 0)
    (hA : ∀ c w, (pd p c).A w = W c (Proc.devRef .tc (Pipeline.arrRef (cfgs p).spec w)))
    (hb : ∀ c, Pipeline.BodyObligationLoose (pd p c) (defs₀ (F := F)) 𝒱₀ () Set.univ)
    (hi : ∀ c, Pipeline.ΦA (cfgs p).spec c ⊢ (pd p c).Φ 0)
    (hu : ∀ c, (pd p c).Φ (Fin.last _) ⊢ Pipeline.ΦA (cfgs p).spec c) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody := hb
  hwaits := Pipeline.hwaits_of_owed_zero _ _ _ _ L lv p hz
  pre c := iprop(StableHlo.held (c : Thread nD τ) (Pipeline.ucRefs τ sig) (W c) ∗ R c)
  post c := iprop(StableHlo.held (c : Thread nD τ) (Pipeline.ucRefs τ sig) (exitVal (pd p c) (W c)) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    rw [Pipeline.ownSems0_none]
    have hsplit := Pipeline.arrays_of_unscopedBufs (p := p) (pcfgs (F := F)) adm pd lf.win lf.arr_whole c
      ((pd p c).share_full (hq c)) (fun b => W c b) (hA c)
    rw [Pipeline.unscopedBufs_held c (W c)] at hsplit
    have hO : iprop(∃ S, owes (c : Thread nD τ) (0 : CellTallies nD τ sig Unit) S) ⊢ ((pd p c).owesAt () 0 : sProp 𝕄) := by
      unfold Pipeline.Dat.owesAt Pipeline.owesWithin; rw [hz c]
      iintro ⟨%S, HO⟩; iexists S; isplitr; · ipureintro; exact fun x _ => Or.inl (hr c x)
      iexact HO
    iintro ⟨⟨Hub, Hp, HO⟩, -, -⟩
    ihave H := hsplit $$ Hub
    icases H with ⟨Ha, Hrest⟩
    imodintro
    isplitl [Ha]; · iexact Ha
    isplitr; · unfold Pipeline.prefHeld; rw [Finset.univ_eq_empty, BI.bigSep_empty]; iempintro
    isplitl [HO]; · iapply hO; iexact HO
    isplitl [Hp]; · iexact Hp
    iexact Hrest
  hin c := by
    iintro ⟨Hp, -, Hr⟩
    iapply (hi c)
    unfold Pipeline.ΦA
    isplitl [Hr]; · iexact Hr
    iexact Hp
  hout c := by
    rw [Pipeline.ownSems0_none]; refine (hu c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c))
      (fun b => W c b) (fun b => exitVal (pd p c) (W c) b) ((pd p c).arrAt · (cfgs p).N)
      (fun w => (exitVal_arr (pd p c) (W c) lf.win.arr_inj w).symm)
      (fun b hb => exitVal_of_ne (pd p c) (W c) b fun w e => hb (Finset.mem_image.mpr ⟨w, Finset.mem_univ _, e⟩))
    rw [Pipeline.unscopedBufs_held c (exitVal (pd p c) (W c))] at hjoin
    have hO : ((pd p c).owesAt () (Fin.last _) : sProp 𝕄) ⊢ iprop(∃ S, owes (c : Thread nD τ) (0 : CellTallies nD τ sig Unit) S) := by
      unfold Pipeline.Dat.owesAt Pipeline.owesWithin; rw [hz c]
      iintro ⟨%S, -, HO⟩; iexists S; iexact HO
    iintro ⟨Ha, HO, HY, Hrest⟩
    imodintro
    isplitl [Ha Hrest]
    · iapply hjoin; isplitl [Ha] <;> iassumption
    unfold R
    isplitl [HY]; · iexact HY
    iapply hO; iexact HO
end Region

set_option backward.isDefEq.respectTransparency.types false in
abbrev segs : List (Pipeline.Seg (pcfgs (F := F)) adm (pdats m ρ) () defs₀ 𝒱₀ L lv) :=
  [ .host (hseg hostOps0 hostOps0_sub hostOps0_fresh (W0 m ρ)),
    .region (reg (pdats m ρ) 0 launch0 (W1 m ρ) Fin.isEmpty (fun _ _ => rfl) (fun _ _ => rfl) (fun _ _ => trivial) (A_eq0 (V1 m ρ))
      (fun c => (body_obligation0 (V1 m ρ) c).loose) (fun _ => .rfl) (fun _ => .rfl)),
    .host (hseg hostOps1 hostOps1_sub hostOps1_fresh (W2 m ρ)),
    .region (reg (pdats m ρ) 1 launch1 (W3 m ρ) Fin.isEmpty (fun _ _ => rfl) (fun _ _ => rfl) (fun _ _ => trivial) (A_eq1 (V3 m ρ))
      (fun c => (body_obligation1 (V3 m ρ) c).loose) (fun _ => .rfl) (fun _ => .rfl)),
    .host (hseg hostOps2 hostOps2_sub hostOps2_fresh (W4 m ρ)),
    .region (reg (pdats m ρ) 2 launch2 (W5 m ρ) Fin.isEmpty (fun _ _ => rfl) (fun _ _ => rfl) (fun _ _ => trivial) (A_eq2 (V5 m ρ))
      (fun c => (body_obligation2 (V5 m ρ) c).loose) (fun _ => .rfl) (fun _ => .rfl)),
    .host (hseg hostOps3 hostOps3_sub hostOps3_fresh (W6 m ρ)),
    .region (reg (pdats m ρ) 3 launch3 (W7 m ρ) Fin.isEmpty (fun _ _ => rfl) (fun _ _ => rfl) (fun _ _ => trivial) (A_eq3 (V7 m ρ))
      (fun c => (body_obligation3 (V7 m ρ) c).loose) (hin3 (V7 m ρ)) (hout3 (V7 m ρ))) ]

theorem main_run (c : Dev nD) : main (F := F) c = Pipeline.Seg.run (segs m ρ) := (main_chain c).trans (by chain_rfl)

set_option backward.isDefEq.respectTransparency.types false in
-- Every weakly fair execution of the program terminates without a fault with every unscoped buffer at `W8`.
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W8 m ρ c) ∗ ∃ r, prngReg c r))
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ c) ∗ R c)
          ⊢ iprop((StableHlo.held (c : Thread nD τ) (Pipeline.ucRefs τ sig) (W8 m ρ c) ∗ ∃ r, prngReg c r)
              ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

-- An unscoped buffer that no item writes is read at the end as launched.
theorem arg_end (mem : (ℓ : Loc nD τ sig) → Buf (Elt F) ℓ) (c : Dev nD) (b : Ref sig .tc)
    (hs : ¬ (Proc.devRef .tc b : DevRef τ sig).isScoped) (hk : Kept b)
    (h : ∀ b ∈ Pipeline.ucRefs τ sig, mem (((c : Thread nD τ)).1, b) = W8 m ρ c b) :
    mem ((c.tc : Thread nD τ).loc b) = m ((c.tc : Thread nD τ).loc b) :=
  (h _ (mem_uc b hs)).trans (W8_carry m ρ c b hk)

theorem run_post : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v60 (by decide)),
    arg_end m ρ r.2.mem c main_arg0 (by decide) (by decide) (h c),
    arg_end m ρ r.2.mem c main_arg1 (by decide) (by decide) (h c),
    arg_end m ρ r.2.mem c main_arg2 (by decide) (by decide) (h c),
    arg_end m ρ r.2.mem c main_arg3 (by decide) (by decide) (h c),
    arg_end m ρ r.2.mem c main_arg4 (by decide) (by decide) (h c),
    arg_end m ρ r.2.mem c main_arg5 (by decide) (by decide) (h c),
    arg_end m ρ r.2.mem c main_arg6 (by decide) (by decide) (h c),
    arg_end m ρ r.2.mem c main_arg7 (by decide) (by decide) (h c),
    arg_end m ρ r.2.mem c main_arg8 (by decide) (by decide) (h c),
    arg_end m ρ r.2.mem c main_arg9 (by decide) (by decide) (h c),
    arg_end m ρ r.2.mem c main_arg10 (by decide) (by decide) (h c)⟩) (run_all m ρ)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_post m ρ)

theorem W8_result (c : Dev nD) : W8 m ρ c (Proc.devRef .tc main_v60) = (dat3 (V7 m ρ) c).arrAt 9 cfg3.N :=
  W8_arr m ρ c 9

end Cert.Kernel.Hand

end
-- ==== Proof.KI.Reg0.lean ====
import proofs.«409879_j3573412790605_2_alg».proof.Proof.Gen.KernelIdeal.Launch
import proofs.«409879_j3573412790605_2_alg».proof.Proof.Gen.KernelIdeal.Skeleton
import proofs.«409879_j3573412790605_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x1 := Rect.unit (s := S5000x1) ![0, 0] S5000x1.size inb_S5000x1_S5000x1_0_0

def out0_3 (x0 : Vec F S5000x128 .f32) (x1 : Vec F S128x128 .f32) : Vec F S5000x128 .f32 :=
  View.canon [⟨r0_0, k0_pay1 (View.ld x0 r0_0) (View.ld x1 r0_1)⟩]

def out0_4 (x0 : Vec F S5000x128 .f32) (x1 : Vec F S128x128 .f32) (x2 : Vec F S5000x1 .f32) : Vec F S5000x128 .f32 :=
  View.canon [⟨r0_0, k0_pay2 (View.ld x0 r0_0) (View.ld x1 r0_1) (View.ld x2 r0_2)⟩]

-- The rectangle of full extent at offset zero contains every index.
theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x1 .f32) (harg3 : arg3.IsWhole) (arg4 : Memref sig .tc .vmem S5000x128 .f32) (harg4 : arg4.IsWhole) (arg5 : Memref sig .tc .vmem S5000x128 .f32) (harg5 : arg5.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__matmul_scaled_kernel i arg1 harg1 arg2 harg2 arg3 harg3 arg4 harg4 arg5 harg5) K := by
  simp only [cc0__matmul_scaled_kernel_eq_skeleton]; unfold cc0__matmul_scaled_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover0_3 _)
  iexists _; isplitr
  swap; · iexact H4
  ipureintro
  try dsimp only
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

theorem sound_body0 (c : Dev nD) (t : Fin cfg0.N) :
    iprop((dat0 V c).Φ t.castSucc ∗ (dat0 V c).owesAt () t.castSucc
        ∗ bigSep Finset.univ fun w : Fin cfg0.W => iprop(∃ d, owns (c : Thread nD τ) ((cfg0.win w).stage (cfg0.slots t w)) fullShare ((dat0 V c).before w t d)))
      ⊢ wp frame (wpE (defs₀ (F := F)) Variants.none c none) Set.univ (bodyAt0 t) fun _ =>
          iprop((dat0 V c).Φ t.succ ∗ (dat0 V c).owesAt () t.succ
            ∗ bigSep Finset.univ fun w : Fin cfg0.W => owns (c : Thread nD τ) ((cfg0.win w).stage (cfg0.slots t w)) fullShare ((dat0 V c).after w t)) := by
  rw [bigSep_W0, bigSep_W0]
  simp only [before0_0, before0_1, before0_2]
  rw [show (dat0 V c).Φ t.succ = (dat0 V c).Φ t.castSucc from rfl,
    show (dat0 V c).owesAt () t.succ = (dat0 V c).owesAt () t.castSucc from rfl,
    after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ :=
  fun t => sound_body0 V c t

end Cert.KernelIdeal.Hand
-- ==== Proof.KI.Reg1.lean ====
import proofs.«409879_j3573412790605_2_alg».proof.Proof.Gen.KernelIdeal.Launch
import proofs.«409879_j3573412790605_2_alg».proof.Proof.Gen.KernelIdeal.Skeleton
import proofs.«409879_j3573412790605_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S2000x1 := Rect.unit (s := S2000x1) ![0, 0] S2000x1.size inb_S2000x1_S2000x1_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0

def out1_6 (x0 : Vec F S2000x128 .f32) (x1 : Vec F S2000x128 .f32) (x2 : Vec F S2000x1 .f32) (x3 : Vec F S2000x1 .f32) (x4 : Vec F S1x128 .f32) (x5 : Vec F S128x128 .f32) : Vec F S2000x128 .f32 :=
  View.canon [⟨r1_0, k1_pay1 (View.ld x0 r1_0) (View.ld x2 r1_1) (View.ld x1 r1_0) (View.ld x3 r1_1) (View.ld x4 r1_2) (View.ld x5 r1_3)⟩]

def out1_7 (x0 : Vec F S2000x128 .f32) (x1 : Vec F S2000x128 .f32) (x2 : Vec F S2000x1 .f32) (x3 : Vec F S2000x1 .f32) (x4 : Vec F S1x128 .f32) (x5 : Vec F S128x128 .f32) : Vec F S2000x128 .f32 :=
  View.canon [⟨r1_0, k1_pay2 (View.ld x0 r1_0) (View.ld x2 r1_1) (View.ld x1 r1_0) (View.ld x3 r1_1) (View.ld x4 r1_2) (View.ld x5 r1_3) (View.ld x2 r1_1)⟩]

-- The rectangle of full extent at offset zero contains every index.
theorem cover1_6 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

set_option maxHeartbeats 4000000 in
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S2000x1 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S2000x128 .f32) (harg7 : arg7.IsWhole) (arg8 : Memref sig .tc .vmem S2000x128 .f32) (harg8 : arg8.IsWhole)
    (x0 : Vec F S2000x128 .f32) (x1 : Vec F S2000x128 .f32) (x2 : Vec F S2000x1 .f32) (x3 : Vec F S2000x1 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__combine_matmul_kernel i arg1 harg1 arg2 harg2 arg3 harg3 arg4 harg4 arg5 harg5 arg6 harg6 arg7 harg7 arg8 harg8) K := by
  simp only [cc1__combine_matmul_kernel_eq_skeleton]; unfold cc1__combine_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  iexists _; isplitr
  swap; · iexact H7
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

set_option maxHeartbeats 1000000 in
theorem sound_body1 (c : Dev nD) (t : Fin cfg1.N) :
    iprop((dat1 V c).Φ t.castSucc ∗ (dat1 V c).owesAt () t.castSucc
        ∗ bigSep Finset.univ fun w : Fin cfg1.W => iprop(∃ d, owns (c : Thread nD τ) ((cfg1.win w).stage (cfg1.slots t w)) fullShare ((dat1 V c).before w t d)))
      ⊢ wp frame (wpE (defs₀ (F := F)) Variants.none c none) Set.univ (bodyAt1 t) fun _ =>
          iprop((dat1 V c).Φ t.succ ∗ (dat1 V c).owesAt () t.succ
            ∗ bigSep Finset.univ fun w : Fin cfg1.W => owns (c : Thread nD τ) ((cfg1.win w).stage (cfg1.slots t w)) fullShare ((dat1 V c).after w t)) := by
  rw [bigSep_W1, bigSep_W1]
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ :=
  fun t => sound_body1 V c t

end Cert.KernelIdeal.Hand
-- ==== Proof.KI.Reg2.lean ====
import proofs.«409879_j3573412790605_2_alg».proof.Proof.Gen.KernelIdeal.Launch
import proofs.«409879_j3573412790605_2_alg».proof.Proof.Gen.KernelIdeal.Skeleton
import proofs.«409879_j3573412790605_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S2000x1 := Rect.unit (s := S2000x1) ![0, 0] S2000x1.size inb_S2000x1_S2000x1_0_0
abbrev r2_2 : Rect S1x128 := Rect.unit (s := S1x128) ![0, 0] S1x128.size inb_S1x128_S1x128_0_0
abbrev r2_3 : Rect S128x128 := Rect.unit (s := S128x128) ![0, 0] S128x128.size inb_S128x128_S128x128_0_0

def out2_6 (x0 : Vec F S2000x128 .f32) (x1 : Vec F S2000x128 .f32) (x2 : Vec F S2000x1 .f32) (x3 : Vec F S2000x1 .f32) (x4 : Vec F S1x128 .f32) (x5 : Vec F S128x128 .f32) : Vec F S2000x128 .f32 :=
  View.canon [⟨r2_0, k2_pay1 (View.ld x0 r2_0) (View.ld x2 r2_1) (View.ld x1 r2_0) (View.ld x3 r2_1) (View.ld x4 r2_2) (View.ld x5 r2_3)⟩]

def out2_7 (x0 : Vec F S2000x128 .f32) (x1 : Vec F S2000x128 .f32) (x2 : Vec F S2000x1 .f32) (x3 : Vec F S2000x1 .f32) (x4 : Vec F S1x128 .f32) (x5 : Vec F S128x128 .f32) : Vec F S2000x128 .f32 :=
  View.canon [⟨r2_0, k2_pay2 (View.ld x0 r2_0) (View.ld x2 r2_1) (View.ld x1 r2_0) (View.ld x3 r2_1) (View.ld x4 r2_2) (View.ld x5 r2_3) (View.ld x2 r2_1)⟩]

-- The rectangle of full extent at offset zero contains every index.
theorem cover2_6 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 4000000 in
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S2000x1 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S2000x128 .f32) (harg7 : arg7.IsWhole) (arg8 : Memref sig .tc .vmem S2000x128 .f32) (harg8 : arg8.IsWhole)
    (x0 : Vec F S2000x128 .f32) (x1 : Vec F S2000x128 .f32) (x2 : Vec F S2000x1 .f32) (x3 : Vec F S2000x1 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__combine_matmul_kernel i arg1 harg1 arg2 harg2 arg3 harg3 arg4 harg4 arg5 harg5 arg6 harg6 arg7 harg7 arg8 harg8) K := by
  simp only [cc2__combine_matmul_kernel_eq_skeleton]; unfold cc2__combine_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_6 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

set_option maxHeartbeats 1000000 in
theorem sound_body2 (c : Dev nD) (t : Fin cfg2.N) :
    iprop((dat2 V c).Φ t.castSucc ∗ (dat2 V c).owesAt () t.castSucc
        ∗ bigSep Finset.univ fun w : Fin cfg2.W => iprop(∃ d, owns (c : Thread nD τ) ((cfg2.win w).stage (cfg2.slots t w)) fullShare ((dat2 V c).before w t d)))
      ⊢ wp frame (wpE (defs₀ (F := F)) Variants.none c none) Set.univ (bodyAt2 t) fun _ =>
          iprop((dat2 V c).Φ t.succ ∗ (dat2 V c).owesAt () t.succ
            ∗ bigSep Finset.univ fun w : Fin cfg2.W => owns (c : Thread nD τ) ((cfg2.win w).stage (cfg2.slots t w)) fullShare ((dat2 V c).after w t)) := by
  rw [bigSep_W2, bigSep_W2]
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ :=
  fun t => sound_body2 V c t

end Cert.KernelIdeal.Hand
-- ==== Proof.KI.Reg3.lean ====
import proofs.«409879_j3573412790605_2_alg».proof.Proof.Gen.KernelIdeal.Launch
import proofs.«409879_j3573412790605_2_alg».proof.Proof.Gen.KernelIdeal.Skeleton
import proofs.«409879_j3573412790605_2_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1
abbrev cond3_1 (i : grid3.Coords) : Prop := k3_cond2 i = 1#1

-- The body's first condition holds at the first grid point only, its second at the last only.
theorem hcond3_0 : ∀ t : Fin cfg3.N, cond3_0 (grid3.coords t) ↔ t.val = 0 :=
  (by decide +kernel : ∀ t : Fin grid3.N, cond3_0 (grid3.coords t) ↔ t.val = 0)
theorem hcond3_1 : ∀ t : Fin cfg3.N, cond3_1 (grid3.coords t) ↔ t.val = 24 :=
  (by decide +kernel : ∀ t : Fin grid3.N, cond3_1 (grid3.coords t) ↔ t.val = 24)

theorem idle3_9 : ∀ t : Fin cfg3.N, t.val ≠ 24 → cfg3.idle 9 (grid3.coords t) = true ∧ (cfg3.win 9).flush t = false := by decide +kernel
theorem live3_9 : ∀ t : Fin cfg3.N, t.val = 24 → cfg3.idle 9 (grid3.coords t) = false := by decide +kernel

abbrev ms3_0 (t : Fin cfg3.N) : Memref sig .tc .vmem S2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2000x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2000x1 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S2000x1 .i32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S64x1 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S128x10 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S1x10 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S64x10 .f32 := win3_9.stage (cfg3.slots t 9)
abbrev hs3_9 (t : Fin cfg3.N) : (ms3_9 t).IsWhole := hstage3_9 ((cfg3.slots t 9).cast nbuf3_9)
abbrev scM3_0 : Memref sig .tc .vmem S64x128 .f32 := Memref.whole cc3_scratch0

theorem PhiA3_eq (c : Dev nD) :
    (Pipeline.ΦA spec3 c : sProp 𝕄)
      = iprop(iprop(iprop((∃ d, owns (c : Thread nD τ) scM3_0 fullShare d)) ∗ Pipeline.scopedRestBut spec3 c [cc3_scratch0]) ∗ (∃ r, prngReg c r)) := by
  unfold Pipeline.ΦA; rw [scopedRest3_split]; simp only [scM3_0, owns_whole]; try rfl

-- Reading through a whole memref is a bijection, so owning it at X is holding the one raw contents that read X.
theorem owns_eq_unread (c : Dev nD) {sp : Space} {sh : Shape} {e : EltTy} {m : Memref sig .tc sp sh e} (h : m.IsWhole) (q : PosShare TreeShare) (X : sh.Idx → Elt F e) :
    (owns (c : Thread nD τ) m q X : sProp 𝕄) = (m.view.loc (c : Thread nD τ) ↦[m.view.set]{q} h.unread X) := by
  rw [owns_eq_rep, h.eq_unread (View.read_rep _ _)]

section
variable (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S2000x1 .f32) (harg4 : arg4.IsWhole) (arg5 : Memref sig .tc .vmem S1x128 .f32) (harg5 : arg5.IsWhole) (arg6 : Memref sig .tc .vmem S2000x1 .i32) (harg6 : arg6.IsWhole) (arg7 : Memref sig .tc .vmem S64x1 .f32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole)
  (x0 : Vec F S2000x128 .f32) (x1 : Vec F S2000x128 .f32) (x2 : Vec F S2000x1 .f32) (x3 : Vec F S2000x1 .f32) (x4 : Vec F S1x128 .f32) (x5 : Vec F S2000x1 .i32) (x6 : Vec F S64x1 .f32) (x7 : Vec F S128x10 .f32) (x8 : Vec F S1x10 .f32)

-- The nine inputs held at their contents, beside R.
def ins3 (R : sProp 𝕄) : sProp 𝕄 := iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ R)

-- The body's triple in each of the three cases of its two conditions; the pieces it stores are found by the run.
set_option maxHeartbeats 4000000 in
noncomputable def kernelRun3_A (hc0 : cond3_0 i) (hc1 : ¬cond3_1 i) :
    Σ' (L9 : List (View.Piece (Elt F) S64x10 .f32)), { LS0 : List (View.Piece (Elt F) S64x128 .f32) //
      ∀ (xi9 : Vec F S64x10 .f32) (E : Set ℕ) (K : PUnit → sProp 𝕄),
        ins3 c arg1 arg2 arg3 arg4 arg5 arg6 arg7 arg8 arg9 x0 x1 x2 x3 x4 x5 x6 x7 x8 iprop(owns (c : Thread nD τ) arg10 fullShare xi9 ∗ (∃ d, owns (c : Thread nD τ) arg11 fullShare d)
            ∗ (ins3 c arg1 arg2 arg3 arg4 arg5 arg6 arg7 arg8 arg9 x0 x1 x2 x3 x4 x5 x6 x7 x8 iprop(owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc3__pool_fc_kernel i arg1 harg1 arg2 harg2 arg3 harg3 arg4 harg4 arg5 harg5 arg6 harg6 arg7 harg7 arg8 harg8 arg9 harg9 arg10 harg10 arg11 harg11) K } := by
  refine ⟨[], ?_, fun xi9 E K => ?run⟩
  case run =>
    simp only [cc3__pool_fc_kernel_eq_skeleton]; unfold cc3__pool_fc_kernel_skel
    simp only [k3_part1_eq_skeleton]
    unfold ins3
    simp only [owns_eq_unread c harg1, owns_eq_unread c harg2, owns_eq_unread c harg3, owns_eq_unread c harg4, owns_eq_unread c harg5, owns_eq_unread c harg6, owns_eq_unread c harg7, owns_eq_unread c harg8, owns_eq_unread c harg9, owns_eq_unread c harg10]
    unfold owns
    iintro ⟨H0, H1, H2, H3, H4, H5, H6, H7, H8, H9, ⟨%ds0, %fs0, -, HS0⟩, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact HS0

set_option maxHeartbeats 4000000 in
noncomputable def kernelRun3_B (hc0 : ¬cond3_0 i) (hc1 : ¬cond3_1 i) (xs0 : Vec F S64x128 .f32) :
    Σ' (L9 : List (View.Piece (Elt F) S64x10 .f32)), { LS0 : List (View.Piece (Elt F) S64x128 .f32) //
      ∀ (xi9 : Vec F S64x10 .f32) (E : Set ℕ) (K : PUnit → sProp 𝕄),
        ins3 c arg1 arg2 arg3 arg4 arg5 arg6 arg7 arg8 arg9 x0 x1 x2 x3 x4 x5 x6 x7 x8 iprop(owns (c : Thread nD τ) arg10 fullShare xi9 ∗ owns (c : Thread nD τ) arg11 fullShare xs0
            ∗ (ins3 c arg1 arg2 arg3 arg4 arg5 arg6 arg7 arg8 arg9 x0 x1 x2 x3 x4 x5 x6 x7 x8 iprop(owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc3__pool_fc_kernel i arg1 harg1 arg2 harg2 arg3 harg3 arg4 harg4 arg5 harg5 arg6 harg6 arg7 harg7 arg8 harg8 arg9 harg9 arg10 harg10 arg11 harg11) K } := by
  refine ⟨[], ?_, fun xi9 E K => ?run⟩
  case run =>
    simp only [cc3__pool_fc_kernel_eq_skeleton]; unfold cc3__pool_fc_kernel_skel
    simp only [k3_part1_eq_skeleton]
    unfold ins3
    simp only [owns_eq_unread c harg1, owns_eq_unread c harg2, owns_eq_unread c harg3, owns_eq_unread c harg4, owns_eq_unread c harg5, owns_eq_unread c harg6, owns_eq_unread c harg7, owns_eq_unread c harg8, owns_eq_unread c harg9, owns_eq_unread c harg10, owns_eq_unread c harg11]
    iintro ⟨H0, H1, H2, H3, H4, H5, H6, H7, H8, H9, HS0, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact HS0

set_option maxHeartbeats 4000000 in
noncomputable def kernelRun3_C (hc0 : ¬cond3_0 i) (hc1 : cond3_1 i) (xs0 : Vec F S64x128 .f32) :
    Σ' (L9 : List (View.Piece (Elt F) S64x10 .f32)), { LS0 : List (View.Piece (Elt F) S64x128 .f32) //
      ∀ (E : Set ℕ) (K : PUnit → sProp 𝕄),
        ins3 c arg1 arg2 arg3 arg4 arg5 arg6 arg7 arg8 arg9 x0 x1 x2 x3 x4 x5 x6 x7 x8 iprop((∃ d, owns (c : Thread nD τ) arg10 fullShare d) ∗ owns (c : Thread nD τ) arg11 fullShare xs0
            ∗ (ins3 c arg1 arg2 arg3 arg4 arg5 arg6 arg7 arg8 arg9 x0 x1 x2 x3 x4 x5 x6 x7 x8 iprop((∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc3__pool_fc_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc3__pool_fc_kernel_eq_skeleton]; unfold cc3__pool_fc_kernel_skel
    simp only [k3_part1_eq_skeleton]
    unfold ins3
    simp only [owns_eq_unread c harg1, owns_eq_unread c harg2, owns_eq_unread c harg3, owns_eq_unread c harg4, owns_eq_unread c harg5, owns_eq_unread c harg6, owns_eq_unread c harg7, owns_eq_unread c harg8, owns_eq_unread c harg9, owns_eq_unread c harg11]
    unfold owns
    iintro ⟨H0, H1, H2, H3, H4, H5, H6, H7, H8, ⟨%d9, %f9, -, H9⟩, HS0, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact HS0

-- Each case's pieces tile their shape, so they cover it.
theorem scover3_A (hc0 : cond3_0 i) (hc1 : ¬cond3_1 i) : ∀ y : S64x128.Idx, ∃ pc ∈ (kernelRun3_A c i arg1 harg1 arg2 harg2 arg3 harg3 arg4 harg4 arg5 harg5 arg6 harg6 arg7 harg7 arg8 harg8 arg9 harg9 arg10 harg10 arg11 harg11 x0 x1 x2 x3 x4 x5 x6 x7 x8 hc0 hc1).2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 x0 x1 x2 x3 x4 x5 x6 x7 x8 hc0 hc1).2.1 S64x128.size (by sl_kernel_rfl)
theorem scover3_B (hc0 : ¬cond3_0 i) (hc1 : ¬cond3_1 i) (xs0 : Vec F S64x128 .f32) : ∀ y : S64x128.Idx, ∃ pc ∈ (kernelRun3_B c i arg1 harg1 arg2 harg2 arg3 harg3 arg4 harg4 arg5 harg5 arg6 harg6 arg7 harg7 arg8 harg8 arg9 harg9 arg10 harg10 arg11 harg11 x0 x1 x2 x3 x4 x5 x6 x7 x8 hc0 hc1 xs0).2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 x0 x1 x2 x3 x4 x5 x6 x7 x8 hc0 hc1 xs0).2.1 S64x128.size (by sl_kernel_rfl)
theorem scover3_C (hc0 : ¬cond3_0 i) (hc1 : cond3_1 i) (xs0 : Vec F S64x128 .f32) : ∀ y : S64x128.Idx, ∃ pc ∈ (kernelRun3_C c i arg1 harg1 arg2 harg2 arg3 harg3 arg4 harg4 arg5 harg5 arg6 harg6 arg7 harg7 arg8 harg8 arg9 harg9 arg10 harg10 arg11 harg11 x0 x1 x2 x3 x4 x5 x6 x7 x8 hc0 hc1 xs0).2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 x0 x1 x2 x3 x4 x5 x6 x7 x8 hc0 hc1 xs0).2.1 S64x128.size (by sl_kernel_rfl)
theorem cover3_C (hc0 : ¬cond3_0 i) (hc1 : cond3_1 i) (xs0 : Vec F S64x128 .f32) : ∀ y : S64x10.Idx, ∃ pc ∈ (kernelRun3_C c i arg1 harg1 arg2 harg2 arg3 harg3 arg4 harg4 arg5 harg5 arg6 harg6 arg7 harg7 arg8 harg8 arg9 harg9 arg10 harg10 arg11 harg11 x0 x1 x2 x3 x4 x5 x6 x7 x8 hc0 hc1 xs0).1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 x0 x1 x2 x3 x4 x5 x6 x7 x8 hc0 hc1 xs0).1 S64x10.size (by sl_kernel_rfl)

end

section
variable (c : Dev nD) (t : Fin cfg3.N)

-- The three cases' runs instantiated at grid point t.
def runA (h0 : t.val = 0) :=
  kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) (iblk3 V c 0 t) (iblk3 V c 1 t) (iblk3 V c 2 t) (iblk3 V c 3 t) (iblk3 V c 4 t) (iblk3 V c 5 t) (iblk3 V c 6 t) (iblk3 V c 7 t) (iblk3 V c 8 t) ((hcond3_0 t).mpr h0) (fun h => by have := (hcond3_1 t).mp h; omega)
def runB (h0 : t.val ≠ 0) (h1 : t.val ≠ 24) (xs0 : Vec F S64x128 .f32) :=
  kernelRun3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) (iblk3 V c 0 t) (iblk3 V c 1 t) (iblk3 V c 2 t) (iblk3 V c 3 t) (iblk3 V c 4 t) (iblk3 V c 5 t) (iblk3 V c 6 t) (iblk3 V c 7 t) (iblk3 V c 8 t) (fun h => h0 ((hcond3_0 t).mp h)) (fun h => h1 ((hcond3_1 t).mp h)) xs0
def runC (h1 : t.val = 24) (xs0 : Vec F S64x128 .f32) :=
  kernelRun3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) (iblk3 V c 0 t) (iblk3 V c 1 t) (iblk3 V c 2 t) (iblk3 V c 3 t) (iblk3 V c 4 t) (iblk3 V c 5 t) (iblk3 V c 6 t) (iblk3 V c 7 t) (iblk3 V c 8 t) (fun h => by have := (hcond3_0 t).mp h; omega) ((hcond3_1 t).mpr h1) xs0

end

-- The canonical contents of the pieces stored at point n (the output's, the accumulator's), by recursion on n through the accumulator.
def outsAt3 (c : Dev nD) : (n : ℕ) → n < cfg3.N → Vec F S64x10 .f32 × Vec F S64x128 .f32
  | 0, hn => (View.canon (runA V c ⟨0, hn⟩ rfl).1, View.canon (runA V c ⟨0, hn⟩ rfl).2.1)
  | n + 1, hn =>
    if h1 : n + 1 = 24 then
      (View.canon (runC V c ⟨n + 1, hn⟩ h1 (outsAt3 c n (Nat.lt_of_succ_lt hn)).2).1, View.canon (runC V c ⟨n + 1, hn⟩ h1 (outsAt3 c n (Nat.lt_of_succ_lt hn)).2).2.1)
    else
      (View.canon (runB V c ⟨n + 1, hn⟩ (Nat.succ_ne_zero n) h1 (outsAt3 c n (Nat.lt_of_succ_lt hn)).2).1, View.canon (runB V c ⟨n + 1, hn⟩ (Nat.succ_ne_zero n) h1 (outsAt3 c n (Nat.lt_of_succ_lt hn)).2).2.1)

theorem outsAt3_A (c : Dev nD) (t : Fin cfg3.N) (h0 : t.val = 0) :
    outsAt3 V c t.val t.isLt = (View.canon (runA V c t h0).1, View.canon (runA V c t h0).2.1) := by
  obtain ⟨n, hn⟩ := t
  cases n with
  | zero => rfl
  | succ n => exact absurd h0 (Nat.succ_ne_zero n)

theorem outsAt3_B (c : Dev nD) (t : Fin cfg3.N) (h0 : t.val ≠ 0) (h1 : t.val ≠ 24) :
    outsAt3 V c t.val t.isLt = (View.canon (runB V c t h0 h1 (outsAt3 V c (t.val - 1) (Nat.lt_of_le_of_lt (Nat.sub_le _ _) t.isLt)).2).1, View.canon (runB V c t h0 h1 (outsAt3 V c (t.val - 1) (Nat.lt_of_le_of_lt (Nat.sub_le _ _) t.isLt)).2).2.1) := by
  obtain ⟨n, hn⟩ := t
  cases n with
  | zero => exact absurd rfl h0
  | succ n => exact (dif_neg h1).trans rfl

theorem outsAt3_C (c : Dev nD) (t : Fin cfg3.N) (h1 : t.val = 24) :
    outsAt3 V c t.val t.isLt = (View.canon (runC V c t h1 (outsAt3 V c (t.val - 1) (Nat.lt_of_le_of_lt (Nat.sub_le _ _) t.isLt)).2).1, View.canon (runC V c t h1 (outsAt3 V c (t.val - 1) (Nat.lt_of_le_of_lt (Nat.sub_le _ _) t.isLt)).2).2.1) := by
  obtain ⟨n, hn⟩ := t
  cases n with
  | zero => exact absurd h1 (by show ¬ (0 : ℕ) = 24; decide)
  | succ n => exact (dif_pos h1).trans rfl

-- The invariant before position n: the entry invariant at 0, afterwards the accumulator owned at the previous point's value.
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ Pipeline.scopedRestBut spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Pipeline.scopedRestBut spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_9 (c : Dev nD) (t : Fin cfg3.N) : (dat3 V c).after 9 t = (outsAt3 V c t.val t.isLt).1 := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d
theorem before3_5 (c : Dev nD) (t : Fin cfg3.N) (d) : (dat3 V c).before 5 t d = iblk3 V c 5 t :=
  (dat3 V c).before_in_eq_fetched 5 rfl (fun _ => rfl) (fun _ _ _ => rfl) (fun _ => rfl) t d
theorem before3_6 (c : Dev nD) (t : Fin cfg3.N) (d) : (dat3 V c).before 6 t d = iblk3 V c 6 t :=
  (dat3 V c).before_in_eq_fetched 6 rfl (fun _ => rfl) (fun _ _ _ => rfl) (fun _ => rfl) t d
theorem before3_7 (c : Dev nD) (t : Fin cfg3.N) (d) : (dat3 V c).before 7 t d = iblk3 V c 7 t :=
  (dat3 V c).before_in_eq_fetched 7 rfl (fun _ => rfl) (fun _ _ _ => rfl) (fun _ => rfl) t d
theorem before3_8 (c : Dev nD) (t : Fin cfg3.N) (d) : (dat3 V c).before 8 t d = iblk3 V c 8 t :=
  (dat3 V c).before_in_eq_fetched 8 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d)))

def bodyPost3 (c : Dev nD) (t : Fin cfg3.N) : sProp 𝕄 :=
  iprop((dat3 V c).Φ t.succ ∗ (dat3 V c).owesAt () t.succ
    ∗ owns (c : Thread nD τ) (ms3_0 t) fullShare (iblk3 V c 0 t)
    ∗ owns (c : Thread nD τ) (ms3_1 t) fullShare (iblk3 V c 1 t)
    ∗ owns (c : Thread nD τ) (ms3_2 t) fullShare (iblk3 V c 2 t)
    ∗ owns (c : Thread nD τ) (ms3_3 t) fullShare (iblk3 V c 3 t)
    ∗ owns (c : Thread nD τ) (ms3_4 t) fullShare (iblk3 V c 4 t)
    ∗ owns (c : Thread nD τ) (ms3_5 t) fullShare (iblk3 V c 5 t)
    ∗ owns (c : Thread nD τ) (ms3_6 t) fullShare (iblk3 V c 6 t)
    ∗ owns (c : Thread nD τ) (ms3_7 t) fullShare (iblk3 V c 7 t)
    ∗ owns (c : Thread nD τ) (ms3_8 t) fullShare (iblk3 V c 8 t)
    ∗ (dat3 V c).leavesExact 9 t)

-- The body at any point: its case's run, between the invariant before the point and the invariant after it.
set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).owesAt () t.succ = (dat3 V c).owesAt () t.castSucc from rfl]
  rw [show (dat3 V c).Φ t.succ = PhiS3 V c (t.val + 1) t.isLt from rfl, PhiS3_succ, PhiS3_castSucc V c t]
  by_cases h0 : t.val = 0
  · rw [Dat.leavesExact_idle (dat3 V c) 9 t (idle3_9 t (by omega)).1 (idle3_9 t (by omega)).2, outsAt3_A V c t h0, PhiS3_zero V c _ _ h0, PhiA3_eq]
    dsimp only
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA V c t h0).2.2 _ Set.univ _)
    unfold ins3
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    iintro ⟨H0, H1, H2, H3, H4, H5, H6, H7, H8, H9, ⟨%es0, HS0⟩⟩
    isplitl [HS0 HR Hg]
    · isplitl [HS0 HR]
      · isplitl [HS0]
        · unfold owns; iexists _; isplitr
          swap; · iexact HS0
          ipureintro; exact View.read_writes_eq_canon _ _ _ fun _ => scover3_A ..
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · rw [PhiS3_pos V c _ _ h0]
    by_cases h1 : t.val = 24
    · rw [show (dat3 V c).leavesExact 9 t = owns (c : Thread nD τ) (ms3_9 t) fullShare ((dat3 V c).after 9 t) from by
        unfold Dat.leavesExact; rw [live3_9 t h1], after3_9, outsAt3_C V c t h1]
      dsimp only
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runC V c t h1 _).2.2 Set.univ _)
      unfold ins3
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      iintro ⟨H0, H1, H2, H3, H4, H5, H6, H7, H8, ⟨%e9, H9⟩, ⟨%es0, HS0⟩⟩
      isplitl [HS0 HR Hg]
      · isplitl [HS0 HR]
        · isplitl [HS0]
          · unfold owns; iexists _; isplitr
            swap; · iexact HS0
            ipureintro; exact View.read_writes_eq_canon _ _ _ fun _ => scover3_C ..
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_eq_canon _ _ _ fun _ => cover3_C ..
    · rw [Dat.leavesExact_idle (dat3 V c) 9 t (idle3_9 t h1).1 (idle3_9 t h1).2, outsAt3_B V c t h0 h1]
      dsimp only
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB V c t h0 h1 _).2.2 _ Set.univ _)
      unfold ins3
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iintro ⟨H0, H1, H2, H3, H4, H5, H6, H7, H8, H9, ⟨%es0, HS0⟩⟩
      isplitl [HS0 HR Hg]
      · isplitl [HS0 HR]
        · isplitl [HS0]
          · unfold owns; iexists _; isplitr
            swap; · iexact HS0
            ipureintro; exact View.read_writes_eq_canon _ _ _ fun _ => scover3_B ..
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

-- Past position 0 the invariant entails the entry invariant: the accumulator's value is forgotten.
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

theorem hout3 (c : Dev nD) : (dat3 V c).Φ (Fin.last cfg3.N) ⊢ Pipeline.ΦA spec3 c :=
  Phi_out3 V c _ (by rw [Fin.val_last]; have : cfg3.N = 25 := N_3; omega)

end Cert.KernelIdeal.Hand
end
-- ==== Proof.KI.Run.lean ====
import proofs.«409879_j3573412790605_2_alg».proof.Proof.KI.Reg0
import proofs.«409879_j3573412790605_2_alg».proof.Proof.KI.Reg1
import proofs.«409879_j3573412790605_2_alg».proof.Proof.KI.Reg2
import proofs.«409879_j3573412790605_2_alg».proof.Proof.KI.Reg3
import proofs.«409879_j3573412790605_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Exit
variable {cfg : Cfg sig Λ₀} {c : Dev nD} (d : Dat τ (Elt F) Unit ℕ (UR sig nD τ) ℕ cfg c) (W : Valuation τ sig (Elt F))

-- The valuation after a region entered at `W`: its windows' arrays at their final contents, every other buffer as in `W`.
def exitVal : Valuation τ sig (Elt F) := Pipeline.withArrays cfg.spec c W fun w => d.arrAt w cfg.N
theorem exitVal_arr (hinj : Function.Injective (Pipeline.arrRef cfg.spec)) (w : Fin cfg.W) :
    exitVal d W (Proc.devRef .tc (Pipeline.arrRef cfg.spec w)) = d.arrAt w cfg.N :=
  Pipeline.withArrays_arr cfg.spec hinj c _ _ w
theorem exitVal_of_ne (b : Ref sig .tc) (hb : ∀ w, Pipeline.arrRef cfg.spec w ≠ b) :
    exitVal d W (Proc.devRef .tc b) = W (Proc.devRef .tc b) :=
  Pipeline.withArrays_of_ne cfg.spec c _ _ b hb
-- Only an output window's array can differ from `W` afterwards.
theorem exitVal_keep (hinj : Function.Injective (Pipeline.arrRef cfg.spec))
    (hA : ∀ w, d.A w = W (Proc.devRef .tc (Pipeline.arrRef cfg.spec w))) (b : Ref sig .tc)
    (h : ∀ w : Fin cfg.W, Pipeline.arrRef cfg.spec w = b → (cfg.win w).isOut = false) :
    exitVal d W (Proc.devRef .tc b) = W (Proc.devRef .tc b) := by
  by_cases hb : ∃ w, Pipeline.arrRef cfg.spec w = b
  · obtain ⟨w, rfl⟩ := hb
    rw [exitVal_arr d W hinj, d.arrAt_in w (h w rfl) _, hA]
  · exact exitVal_of_ne d W b fun w e => hb ⟨w, e⟩
end Exit

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) := exitVal (dat0 (V1 m ρ) c) (W1 m ρ c)
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) := exitVal (dat1 (V3 m ρ) c) (W3 m ρ c)
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) := exitVal (dat2 (V5 m ρ) c) (W5 m ρ c)
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 (c : Dev nD) : Valuation τ sig (Elt F) := exitVal (dat3 (V7 m ρ) c) (W7 m ρ c)

theorem W2_arr (c : Dev nD) (w : Fin cfg0.W) : W2 m ρ c (Proc.devRef .tc (Pipeline.arrRef spec0 w)) = (dat0 (V1 m ρ) c).arrAt w cfg0.N :=
  exitVal_arr (dat0 (V1 m ρ) c) _ launch0.win.arr_inj w
theorem W4_arr (c : Dev nD) (w : Fin cfg1.W) : W4 m ρ c (Proc.devRef .tc (Pipeline.arrRef spec1 w)) = (dat1 (V3 m ρ) c).arrAt w cfg1.N :=
  exitVal_arr (dat1 (V3 m ρ) c) _ launch1.win.arr_inj w
theorem W6_arr (c : Dev nD) (w : Fin cfg2.W) : W6 m ρ c (Proc.devRef .tc (Pipeline.arrRef spec2 w)) = (dat2 (V5 m ρ) c).arrAt w cfg2.N :=
  exitVal_arr (dat2 (V5 m ρ) c) _ launch2.win.arr_inj w
theorem W8_arr (c : Dev nD) (w : Fin cfg3.W) : W8 m ρ c (Proc.devRef .tc (Pipeline.arrRef spec3 w)) = (dat3 (V7 m ρ) c).arrAt w cfg3.N :=
  exitVal_arr (dat3 (V7 m ρ) c) _ launch3.win.arr_inj w

-- No host stretch after the first writes `b`, and it is no output array of the first three regions.
abbrev Quiet (b : Ref sig .tc) : Prop :=
  b ∉ hostOps1_W ∧ b ∉ hostOps2_W ∧ b ∉ hostOps3_W
  ∧ (∀ w : Fin cfg0.W, Pipeline.arrRef spec0 w = b → (cfg0.win w).isOut = false)
  ∧ (∀ w : Fin cfg1.W, Pipeline.arrRef spec1 w = b → (cfg1.win w).isOut = false)
  ∧ (∀ w : Fin cfg2.W, Pipeline.arrRef spec2 w = b → (cfg2.win w).isOut = false)
abbrev Carried (c : Dev nD) (b : Ref sig .tc) : Prop :=
  W2 m ρ c (Proc.devRef .tc b) = V1 m ρ c b ∧ V3 m ρ c b = V1 m ρ c b ∧ W4 m ρ c (Proc.devRef .tc b) = V1 m ρ c b
  ∧ V5 m ρ c b = V1 m ρ c b ∧ W6 m ρ c (Proc.devRef .tc b) = V1 m ρ c b ∧ V7 m ρ c b = V1 m ρ c b
-- Such a buffer holds at every later boundary what the first host stretch left in it.
theorem quiet (c : Dev nD) (b : Ref sig .tc) (h : Quiet b) : Carried m ρ c b := by
  have e2 := exitVal_keep (dat0 (V1 m ρ) c) (W1 m ρ c) launch0.win.arr_inj (A_eq0 (V1 m ρ) c) b h.2.2.2.1
  have e3 := (StableHlo.after_of_writes_sub hostOps1 _ hostOps1_writes h.1).trans e2
  have e4 := (exitVal_keep (dat1 (V3 m ρ) c) (W3 m ρ c) launch1.win.arr_inj (A_eq1 (V3 m ρ) c) b h.2.2.2.2.1).trans e3
  have e5 := (StableHlo.after_of_writes_sub hostOps2 _ hostOps2_writes h.2.1).trans e4
  have e6 := (exitVal_keep (dat2 (V5 m ρ) c) (W5 m ρ c) launch2.win.arr_inj (A_eq2 (V5 m ρ) c) b h.2.2.2.2.2).trans e5
  exact ⟨e2, e3, e4, e5, e6, (StableHlo.after_of_writes_sub hostOps3 _ hostOps3_writes h.2.2.1).trans e6⟩

abbrev Kept (b : Ref sig .tc) : Prop :=
  b ∉ hostOps0_W ∧ Quiet b ∧ ∀ w : Fin cfg3.W, Pipeline.arrRef spec3 w = b → (cfg3.win w).isOut = false
theorem W8_carry (c : Dev nD) (b : Ref sig .tc) (h : Kept b) : W8 m ρ c (Proc.devRef .tc b) = m ((c : Thread nD τ).loc b) :=
  (exitVal_keep (dat3 (V7 m ρ) c) (W7 m ρ c) launch3.win.arr_inj (A_eq3 (V7 m ρ) c) b h.2.2).trans <| (quiet m ρ c b h.2.1).2.2.2.2.2.trans <|
  (StableHlo.after_of_writes_sub hostOps0 _ hostOps0_writes h.1).trans rfl

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Region
variable (pd : (p : Fin 4) → (c : Dev nD) → Dat τ (Elt F) Unit ℕ (UR sig nD τ) ℕ (Pipeline.pin (pcfgs (F := F)) adm p) c)

set_option backward.isDefEq.respectTransparency.types false in
-- One kernel region as an item of the program's run, from its proof data and the facts the run needs of them.
def reg (p : Fin 4) (lf : Pipeline.LaunchFacts (nD := nD) (τ := τ) cfgs p) (W : Dev nD → Valuation τ sig (Elt F))
    (hK : IsEmpty (Fin (pcfgs (F := F) p).pre.K))
    (hq : ∀ c w, (pd p c).q w = fullShare) (hz : ∀ c t, (pd p c).owed t = 0) (hr : ∀ c x, x ∈ (pd p c).recorded 0)
    (hA : ∀ c w, (pd p c).A w = W c (Proc.devRef .tc (Pipeline.arrRef (cfgs p).spec w)))
    (hb : ∀ c, Pipeline.BodyObligationLoose (pd p c) (defs₀ (F := F)) 𝒱₀ () Set.univ)
    (hi : ∀ c, Pipeline.ΦA (cfgs p).spec c ⊢ (pd p c).Φ 0)
    (hu : ∀ c, (pd p c).Φ (Fin.last _) ⊢ Pipeline.ΦA (cfgs p).spec c) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody := hb
  hwaits := Pipeline.hwaits_of_owed_zero _ _ _ _ L lv p hz
  pre c := iprop(StableHlo.held (c : Thread nD τ) (Pipeline.ucRefs τ sig) (W c) ∗ R c)
  post c := iprop(StableHlo.held (c : Thread nD τ) (Pipeline.ucRefs τ sig) (exitVal (pd p c) (W c)) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    rw [Pipeline.ownSems0_none]
    have hsplit := Pipeline.arrays_of_unscopedBufs (p := p) (pcfgs (F := F)) adm pd lf.win lf.arr_whole c
      ((pd p c).share_full (hq c)) (fun b => W c b) (hA c)
    rw [Pipeline.unscopedBufs_held c (W c)] at hsplit
    have hO : iprop(∃ S, owes (c : Thread nD τ) (0 : CellTallies nD τ sig Unit) S) ⊢ ((pd p c).owesAt () 0 : sProp 𝕄) := by
      unfold Pipeline.Dat.owesAt Pipeline.owesWithin; rw [hz c]
      iintro ⟨%S, HO⟩; iexists S; isplitr; · ipureintro; exact fun x _ => Or.inl (hr c x)
      iexact HO
    iintro ⟨⟨Hub, Hp, HO⟩, -, -⟩
    ihave H := hsplit $$ Hub
    icases H with ⟨Ha, Hrest⟩
    imodintro
    isplitl [Ha]; · iexact Ha
    isplitr; · unfold Pipeline.prefHeld; rw [Finset.univ_eq_empty, BI.bigSep_empty]; iempintro
    isplitl [HO]; · iapply hO; iexact HO
    isplitl [Hp]; · iexact Hp
    iexact Hrest
  hin c := by
    iintro ⟨Hp, -, Hr⟩
    iapply (hi c)
    unfold Pipeline.ΦA
    isplitl [Hr]; · iexact Hr
    iexact Hp
  hout c := by
    rw [Pipeline.ownSems0_none]; refine (hu c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c))
      (fun b => W c b) (fun b => exitVal (pd p c) (W c) b) ((pd p c).arrAt · (cfgs p).N)
      (fun w => (exitVal_arr (pd p c) (W c) lf.win.arr_inj w).symm)
      (fun b hb => exitVal_of_ne (pd p c) (W c) b fun w e => hb (Finset.mem_image.mpr ⟨w, Finset.mem_univ _, e⟩))
    rw [Pipeline.unscopedBufs_held c (exitVal (pd p c) (W c))] at hjoin
    have hO : ((pd p c).owesAt () (Fin.last _) : sProp 𝕄) ⊢ iprop(∃ S, owes (c : Thread nD τ) (0 : CellTallies nD τ sig Unit) S) := by
      unfold Pipeline.Dat.owesAt Pipeline.owesWithin; rw [hz c]
      iintro ⟨%S, -, HO⟩; iexists S; iexact HO
    iintro ⟨Ha, HO, HY, Hrest⟩
    imodintro
    isplitl [Ha Hrest]
    · iapply hjoin; isplitl [Ha] <;> iassumption
    unfold R
    isplitl [HY]; · iexact HY
    iapply hO; iexact HO
end Region

set_option backward.isDefEq.respectTransparency.types false in
abbrev segs : List (Pipeline.Seg (pcfgs (F := F)) adm (pdats m ρ) () defs₀ 𝒱₀ L lv) :=
  [ .host (hseg hostOps0 hostOps0_sub hostOps0_fresh (W0 m ρ)),
    .region (reg (pdats m ρ) 0 launch0 (W1 m ρ) Fin.isEmpty (fun _ _ => rfl) (fun _ _ => rfl) (fun _ _ => trivial) (A_eq0 (V1 m ρ))
      (fun c => (body_obligation0 (V1 m ρ) c).loose) (fun _ => .rfl) (fun _ => .rfl)),
    .host (hseg hostOps1 hostOps1_sub hostOps1_fresh (W2 m ρ)),
    .region (reg (pdats m ρ) 1 launch1 (W3 m ρ) Fin.isEmpty (fun _ _ => rfl) (fun _ _ => rfl) (fun _ _ => trivial) (A_eq1 (V3 m ρ))
      (fun c => (body_obligation1 (V3 m ρ) c).loose) (fun _ => .rfl) (fun _ => .rfl)),
    .host (hseg hostOps2 hostOps2_sub hostOps2_fresh (W4 m ρ)),
    .region (reg (pdats m ρ) 2 launch2 (W5 m ρ) Fin.isEmpty (fun _ _ => rfl) (fun _ _ => rfl) (fun _ _ => trivial) (A_eq2 (V5 m ρ))
      (fun c => (body_obligation2 (V5 m ρ) c).loose) (fun _ => .rfl) (fun _ => .rfl)),
    .host (hseg hostOps3 hostOps3_sub hostOps3_fresh (W6 m ρ)),
    .region (reg (pdats m ρ) 3 launch3 (W7 m ρ) Fin.isEmpty (fun _ _ => rfl) (fun _ _ => rfl) (fun _ _ => trivial) (A_eq3 (V7 m ρ))
      (fun c => (body_obligation3 (V7 m ρ) c).loose) (hin3 (V7 m ρ)) (hout3 (V7 m ρ))) ]

theorem main_run (c : Dev nD) : main (F := F) c = Pipeline.Seg.run (segs m ρ) := (main_chain c).trans (by chain_rfl)

set_option backward.isDefEq.respectTransparency.types false in
-- Every weakly fair execution of the program terminates without a fault with every unscoped buffer at `W8`.
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W8 m ρ c) ∗ ∃ r, prngReg c r))
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ c) ∗ R c)
          ⊢ iprop((StableHlo.held (c : Thread nD τ) (Pipeline.ucRefs τ sig) (W8 m ρ c) ∗ ∃ r, prngReg c r)
              ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

-- An unscoped buffer that no item writes is read at the end as launched.
theorem arg_end (mem : (ℓ : Loc nD τ sig) → Buf (Elt F) ℓ) (c : Dev nD) (b : Ref sig .tc)
    (hs : ¬ (Proc.devRef .tc b : DevRef τ sig).isScoped) (hk : Kept b)
    (h : ∀ b ∈ Pipeline.ucRefs τ sig, mem (((c : Thread nD τ)).1, b) = W8 m ρ c b) :
    mem ((c.tc : Thread nD τ).loc b) = m ((c.tc : Thread nD τ).loc b) :=
  (h _ (mem_uc b hs)).trans (W8_carry m ρ c b hk)

theorem run_post : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v60 (by decide)),
    arg_end m ρ r.2.mem c main_arg0 (by decide) (by decide) (h c),
    arg_end m ρ r.2.mem c main_arg1 (by decide) (by decide) (h c),
    arg_end m ρ r.2.mem c main_arg2 (by decide) (by decide) (h c),
    arg_end m ρ r.2.mem c main_arg3 (by decide) (by decide) (h c),
    arg_end m ρ r.2.mem c main_arg4 (by decide) (by decide) (h c),
    arg_end m ρ r.2.mem c main_arg5 (by decide) (by decide) (h c),
    arg_end m ρ r.2.mem c main_arg6 (by decide) (by decide) (h c),
    arg_end m ρ r.2.mem c main_arg7 (by decide) (by decide) (h c),
    arg_end m ρ r.2.mem c main_arg8 (by decide) (by decide) (h c),
    arg_end m ρ r.2.mem c main_arg9 (by decide) (by decide) (h c),
    arg_end m ρ r.2.mem c main_arg10 (by decide) (by decide) (h c)⟩) (run_all m ρ)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_post m ρ)

theorem W8_result (c : Dev nD) : W8 m ρ c (Proc.devRef .tc main_v60) = (dat3 (V7 m ρ) c).arrAt 9 cfg3.N :=
  W8_arr m ρ c 9

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev SN : Shape := ⟨1, ![50000]⟩
abbrev SNH : Shape := ⟨2, ![50000, 128]⟩
abbrev SHH : Shape := ⟨2, ![128, 128]⟩
abbrev SH : Shape := ⟨1, ![128]⟩
abbrev SHO : Shape := ⟨2, ![128, 10]⟩
abbrev SO : Shape := ⟨1, ![10]⟩
abbrev SGO : Shape := ⟨2, ![64, 10]⟩
abbrev S2E : Shape := ⟨2, ![2, 600000]⟩

def zero : EReal := Ideal.ofBits .f32 0x00000000#32
def one : EReal := Ideal.ofBits .f32 0x3F800000#32

variable (ei : S2E.Idx → BitVec 32) (batch : SN.Idx → BitVec 32)

def src (e : Fin 600000) : BitVec 32 := ei (ix2 (0 : Fin 2) e)
def dst (e : Fin 600000) : BitVec 32 := ei (ix2 (1 : Fin 2) e)

def wrap (w : BitVec 32) : BitVec 32 := if w.toInt < 0 then w + 50000#32 else w
def clampN (w : BitVec 32) : Fin 50000 := ⟨min w.toInt.toNat 49999, by omega⟩
def row (w : BitVec 32) : Fin 50000 := clampN (wrap w)

def edgesTo (n : Fin 50000) : Finset (Fin 600000) := Finset.univ.filter fun e => (dst ei e).toInt = (n.val : Int)
def nodesOf (g : Fin 64) : Finset (Fin 50000) := Finset.univ.filter fun r => (batch (ix1 r)).toInt = (g.val : Int)

def deg (n : Fin 50000) : EReal := (zero + ∑ _e ∈ edgesTo ei n, one) + one
def dinv (n : Fin 50000) : EReal := Ideal.rsqrt (deg ei n)
def invdeg (n : Fin 50000) : EReal := Ideal.div one (deg ei n)

def mm (a : SNH.Idx → EReal) (W : SHH.Idx → EReal) : SNH.Idx → EReal :=
  fun i => ∑ k : Fin 128, a (ix2 (i 0) k) * W (ix2 k (i 1))

def aggK (hs : SNH.Idx → EReal) : SNH.Idx → EReal :=
  fun i => zero + ∑ e ∈ edgesTo ei (i 0), hs (ix2 (row (src ei e)) (i 1))
def combK (agg hlin : SNH.Idx → EReal) (b : SH.Idx → EReal) : SNH.Idx → EReal :=
  fun i => max ((agg i * dinv ei (i 0) + hlin i * invdeg ei (i 0)) + b (ix1 (i 1))) zero
def scaled (hlin : SNH.Idx → EReal) : SNH.Idx → EReal := fun i => hlin i * dinv ei (i 0)
def layerK (hlin : SNH.Idx → EReal) (b : SH.Idx → EReal) : SNH.Idx → EReal :=
  combK ei (aggK ei (scaled ei hlin)) hlin b

def normR (e : Fin 600000) : EReal := dinv ei (row (src ei e)) * dinv ei (row (dst ei e))
def aggR (h : SNH.Idx → EReal) : SNH.Idx → EReal :=
  fun i => zero + ∑ e ∈ edgesTo ei (i 0), h (ix2 (row (src ei e)) (i 1)) * normR ei e
def layerR (h : SNH.Idx → EReal) (b : SH.Idx → EReal) : SNH.Idx → EReal :=
  fun i => max ((aggR ei h i + h i * invdeg ei (i 0)) + b (ix1 (i 1))) zero

def cnt (g : Fin 64) : EReal := max (zero + ∑ _r ∈ nodesOf batch g, one) one
def oh (g : Fin 64) (r : Fin 50000) : EReal := if batch (ix1 r) = BitVec.ofNat 32 g.val then 1 else 0
def sumK (a : SNH.Idx → EReal) (g : Fin 64) (f : Fin 128) : EReal := ∑ r : Fin 50000, oh batch g r * a (ix2 r f)
def sumR (a : SNH.Idx → EReal) (g : Fin 64) (f : Fin 128) : EReal := zero + ∑ r ∈ nodesOf batch g, a (ix2 r f)
def head (s : Fin 64 → Fin 128 → EReal) (Wfc : SHO.Idx → EReal) (bfc : SO.Idx → EReal) : SGO.Idx → EReal :=
  fun j => (∑ k : Fin 128, Ideal.div (s (j 0) k) (cnt batch (j 0)) * Wfc (ix2 k (j 1))) + bfc (ix1 (j 1))

variable (x : SNH.Idx → EReal) (W1 W2 W3 : SHH.Idx → EReal) (b1 b2 b3 : SH.Idx → EReal)
  (Wfc : SHO.Idx → EReal) (bfc : SO.Idx → EReal)

def actK1 : SNH.Idx → EReal := layerK ei (mm x W1) b1
def actK2 : SNH.Idx → EReal := layerK ei (mm (actK1 ei x W1 b1) W2) b2
def actK3 : SNH.Idx → EReal := layerK ei (mm (actK2 ei x W1 W2 b1 b2) W3) b3
def specK : SGO.Idx → EReal := head batch (sumK batch (actK3 ei x W1 W2 W3 b1 b2 b3)) Wfc bfc

def actR1 : SNH.Idx → EReal := layerR ei (mm x W1) b1
def actR2 : SNH.Idx → EReal := layerR ei (mm (actR1 ei x W1 b1) W2) b2
def actR3 : SNH.Idx → EReal := layerR ei (mm (actR2 ei x W1 W2 b1 b2) W3) b3
def specR : SGO.Idx → EReal := head batch (sumR batch (actR3 ei x W1 W2 W3 b1 b2 b3)) Wfc bfc

end Cert.Spec

end
-- ==== Proof.SpecCols.lean ====
import proofs.«409879_j3573412790605_2_alg».proof.Proof.Spec

noncomputable section

namespace Cert.Spec

open Idealize.ShloMosaic Idealize.ShloMosaic.ValueIdx

abbrev SN1 : Shape := ⟨2, ![50000, 1]⟩
abbrev S1H : Shape := ⟨2, ![1, 128]⟩
abbrev SE : Shape := ⟨1, ![600000]⟩
abbrev SG1 : Shape := ⟨2, ![64, 1]⟩
abbrev S1O : Shape := ⟨2, ![1, 10]⟩
abbrev SGH : Shape := ⟨2, ![64, 128]⟩

def aggV (srcv dstv : SE.Idx → BitVec 32) (hs : SNH.Idx → EReal) : SNH.Idx → EReal :=
  fun i => zero + ∑ e ∈ Finset.univ.filter (fun e : Fin 600000 => (dstv (ix1 e)).toInt = ((i 0).val : Int)),
    hs (ix2 (row (srcv (ix1 e))) (i 1))
def combV (agg hlin : SNH.Idx → EReal) (dcol icol : SN1.Idx → EReal) (brow : S1H.Idx → EReal) : SNH.Idx → EReal :=
  fun i => max ((agg i * dcol (ix2 (i 0) (0 : Fin 1)) + hlin i * icol (ix2 (i 0) (0 : Fin 1))) + brow (ix2 (0 : Fin 1) (i 1))) zero
def scaledV (h : SNH.Idx → EReal) (dcol : SN1.Idx → EReal) : SNH.Idx → EReal :=
  fun i => h i * dcol (ix2 (i 0) (0 : Fin 1))
def poolV (a : SNH.Idx → EReal) (bcol : SN1.Idx → BitVec 32) : SGH.Idx → EReal :=
  fun j => ∑ r : Fin 50000, (if bcol (ix2 r (0 : Fin 1)) = BitVec.ofNat 32 (j 0).val then (1 : EReal) else 0) * a (ix2 r (j 1))
def headV (s : SGH.Idx → EReal) (ccol : SG1.Idx → EReal) (Wfc : SHO.Idx → EReal) (brow : S1O.Idx → EReal) : SGO.Idx → EReal :=
  fun j => (∑ k : Fin 128, Ideal.div (s (ix2 (j 0) k)) (ccol (ix2 (j 0) (0 : Fin 1))) * Wfc (ix2 k (j 1))) + brow (ix2 (0 : Fin 1) (j 1))

variable (ei : S2E.Idx → BitVec 32) (batch : SN.Idx → BitVec 32)

def srcV : SE.Idx → BitVec 32 := fun i => ei (ix2 (0 : Fin 2) (i 0))
def dstV : SE.Idx → BitVec 32 := fun i => ei (ix2 (1 : Fin 2) (i 0))
def dinvCol : SN1.Idx → EReal := fun i => dinv ei (i 0)
def invdegCol : SN1.Idx → EReal := fun i => invdeg ei (i 0)
def biasRow (b : SH.Idx → EReal) : S1H.Idx → EReal := fun i => b (ix1 (i 1))
def batchCol : SN1.Idx → BitVec 32 := fun i => batch (ix1 (i 0))
def cntCol : SG1.Idx → EReal := fun i => cnt batch (i 0)
def biasRowO (b : SO.Idx → EReal) : S1O.Idx → EReal := fun i => b (ix1 (i 1))

theorem aggV_eq (hs : SNH.Idx → EReal) : aggV (srcV ei) (dstV ei) hs = aggK ei hs := rfl
theorem combV_eq (agg hlin : SNH.Idx → EReal) (b : SH.Idx → EReal) :
    combV agg hlin (dinvCol ei) (invdegCol ei) (biasRow b) = combK ei agg hlin b := rfl
theorem scaledV_eq (h : SNH.Idx → EReal) : scaledV h (dinvCol ei) = scaled ei h := rfl
theorem headV_eq (a : SNH.Idx → EReal) (Wfc : SHO.Idx → EReal) (bfc : SO.Idx → EReal) :
    headV (poolV a (batchCol batch)) (cntCol batch) Wfc (biasRowO bfc) = head batch (sumK batch a) Wfc bfc := rfl

end Cert.Spec

end
-- ==== Proof.KI.ValLib.lean ====
import proofs.«409879_j3573412790605_2_alg».proof.Proof.SpecCols
import Idealize.ShloMosaic.Lib.Pipeline.Value
import Idealize.ShloMosaic.PureOps.Ideal.Laws
import Idealize.ShloMosaic.Lib.KernelVsHost
import Idealize.ShloMosaic.Lib.StackMember
import Idealize.ShloMosaic.Lib.ValueLayout

noncomputable section

namespace Cert.KernelIdeal.HandV

open Idealize.ShloMosaic Idealize.ShloMosaic.ValueIdx

theorem hz : (![0, 0] : Fin 2 → Nat) = fun _ => 0 := funext fun a => by fin_cases a <;> rfl

-- A column repeated along the rows has, at (p, k), the column's entry p.
theorem bcol_apply {α : Type} {a b : ℕ} (x : (⟨2, ![a, 1]⟩ : Shape).Idx → α) (h : (⟨2, ![a, 1]⟩ : Shape).Broadcasts ⟨2, ![a, b]⟩)
    (p : Fin a) (k : Fin b) : broadcastTo ⟨2, ![a, b]⟩ x h (ix2 p k) = x (ix2 p (0 : Fin 1)) := by
  refine broadcastTo_apply x h (ix2 p k) (ix2 p (0 : Fin 1)) fun ax => ?_
  match ax with
  | ⟨0, _⟩ =>
    show p.val = if a = 1 then 0 else p.val
    split
    · have := p.isLt; omega
    · rfl
  | ⟨1, _⟩ => rfl

-- An m × k by k × n matrix product read at (a, b) is the sum over c of A (a, c) * B (c, b).
theorem matmul_plain_apply {m k n : ℕ} {φ₁ φ₂ : FTy} (A : FVec Ideal ⟨2, ![m, k]⟩ φ₁) (B : FVec Ideal ⟨2, ![k, n]⟩ φ₂)
    (a : Fin m) (b : Fin n) :
    matmul (DotDims.plain m k n) none A B (constant ⟨2, ![m, n]⟩ .f32 0x00000000#32) (ix2 a b) = ∑ c : Fin k, A (ix2 a c) * B (ix2 c b) := by
  rw [matmul_zero_eq_dotGeneral]
  exact StackMember.dotGeneral_plain_apply none A B a b

theorem mm_apply (A : Cert.Spec.SNH.Idx → EReal) (W : Cert.Spec.SHH.Idx → EReal) (r : Fin 50000) (q : Fin 128) :
    Cert.Spec.mm A W (ix2 r q) = ∑ k : Fin 128, A (ix2 r k) * W (ix2 k q) := rfl

theorem scaledV_apply (h : Cert.Spec.SNH.Idx → EReal) (dcol : Cert.Spec.SN1.Idx → EReal) (r : Fin 50000) (q : Fin 128) :
    Cert.Spec.scaledV h dcol (ix2 r q) = h (ix2 r q) * dcol (ix2 r (0 : Fin 1)) := rfl

theorem combV_apply (agg hlin : Cert.Spec.SNH.Idx → EReal) (dcol icol : Cert.Spec.SN1.Idx → EReal)
    (brow : Cert.Spec.S1H.Idx → EReal) (r : Fin 50000) (k : Fin 128) :
    Cert.Spec.combV agg hlin dcol icol brow (ix2 r k)
      = max ((agg (ix2 r k) * dcol (ix2 r (0 : Fin 1)) + hlin (ix2 r k) * icol (ix2 r (0 : Fin 1))) + brow (ix2 (0 : Fin 1) k)) Cert.Spec.zero := rfl

end Cert.KernelIdeal.HandV

end
-- ==== Proof.KI.Val0.lean ====
import proofs.«409879_j3573412790605_2_alg».proof.Proof.KI.Reg0
import proofs.«409879_j3573412790605_2_alg».proof.Proof.KI.ValLib

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

namespace Aux0

theorem k0_pay1_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact matmul_plain_apply _ _ p q

theorem k0_pay2_apply (x0 : Vec Ideal S5000x128 .f32) (x1 : Vec Ideal S128x128 .f32) (x2 : Vec Ideal S5000x1 .f32)
    (p : Fin 5000) (q : Fin 128) :
    k0_pay2 (F := Ideal) x0 x1 x2 (ix2 p q) = k0_pay1 (F := Ideal) x0 x1 (ix2 p q) * x2 (ix2 p (0 : Fin 1)) := by
  unfold k0_pay2
  simp only [shapeCast_self]
  rw [mulf_apply, bcol_apply]

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem N0_lt (t : Fin cfg0.N) : t.val < 10 := by
  have h : cfg0.N = 10 := N_0
  have := t.isLt
  omega

def rowOf (t : Fin cfg0.N) (p : Fin 5000) : Fin 50000 := ⟨5000 * t.val + p.val, by have := N0_lt t; have := p.isLt; omega⟩

theorem emb0_3 (t : Fin cfg0.N) (p : Fin 5000) (q : Fin 128) :
    ((cfg0.win 3).blk t).view.emb (ix2 p q : S5000x128.Idx) = (ix2 (rowOf t p) q : S50000x128.Idx) := by
  have h := idx_facts0 t
  funext a; apply Fin.ext
  match a with
  | ⟨0, _⟩ => show win0_3.index t (0 : Fin 2) * 5000 + 1 * p.val = 5000 * t.val + p.val; omega
  | ⟨1, _⟩ => show win0_3.index t (1 : Fin 2) * 128 + 1 * q.val = q.val; omega

theorem emb0_4 (t : Fin cfg0.N) (p : Fin 5000) (q : Fin 128) :
    ((cfg0.win 4).blk t).view.emb (ix2 p q : S5000x128.Idx) = (ix2 (rowOf t p) q : S50000x128.Idx) := by
  have h := idx_facts0 t
  funext a; apply Fin.ext
  match a with
  | ⟨0, _⟩ => show win0_4.index t (0 : Fin 2) * 5000 + 1 * p.val = 5000 * t.val + p.val; omega
  | ⟨1, _⟩ => show win0_4.index t (1 : Fin 2) * 128 + 1 * q.val = q.val; omega

theorem iblk0_0_apply (c : Dev nD) (t : Fin cfg0.N) (p : Fin 5000) (k : Fin 128) :
    (iblk0 (F := Ideal) V c 0 t : S5000x128.Idx → EReal) (ix2 p k) = (V c main_arg0 : S50000x128.Idx → EReal) (ix2 (rowOf t p) k) := by
  have h := idx_facts0 t
  unfold iblk0
  rw [View.read_apply]
  refine congrArg (V c main_arg0 : S50000x128.Idx → EReal) (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

theorem iblk0_1_apply (c : Dev nD) (t : Fin cfg0.N) (k : Fin 128) (q : Fin 128) :
    (iblk0 (F := Ideal) V c 1 t : S128x128.Idx → EReal) (ix2 k q) = (V c main_arg3 : S128x128.Idx → EReal) (ix2 k q) := by
  have h := idx_facts0 t
  unfold iblk0
  rw [View.read_apply]
  refine congrArg (V c main_arg3 : S128x128.Idx → EReal) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

theorem iblk0_2_apply (c : Dev nD) (t : Fin cfg0.N) (p : Fin 5000) :
    (iblk0 (F := Ideal) V c 2 t : S5000x1.Idx → EReal) (ix2 p (0 : Fin 1)) = (V c main_v13 : S50000x1.Idx → EReal) (ix2 (rowOf t p) (0 : Fin 1)) := by
  have h := idx_facts0 t
  unfold iblk0
  rw [View.read_apply]
  refine congrArg (V c main_v13 : S50000x1.Idx → EReal) (funext fun a => Fin.ext ?_)
  match a with
  | ⟨0, _⟩ => show win0_2.index t (0 : Fin 2) * 5000 + 1 * p.val = 5000 * t.val + p.val; omega
  | ⟨1, _⟩ => show win0_2.index t (1 : Fin 2) * 1 + 1 * 0 = 0; omega

theorem k0_pay1_blocks (c : Dev nD) (t : Fin cfg0.N) (p : Fin 5000) (q : Fin 128) :
    k0_pay1 (F := Ideal) (iblk0 V c 0 t) (iblk0 V c 1 t) (ix2 p q)
      = Cert.Spec.mm (V c main_arg0) (V c main_arg3) (ix2 (rowOf t p) q) := by
  rw [k0_pay1_apply, mm_apply]
  refine Finset.sum_congr rfl fun k _ => ?_
  rw [iblk0_0_apply, iblk0_1_apply]

theorem flushed0_3_eq (c : Dev nD) (t : Fin cfg0.N) :
    (dat0 (F := Ideal) V c).flushed 3 t
      = ((cfg0.win 3).blk t).view.read (Elt Ideal) (Cert.Spec.mm (V c main_arg0) (V c main_arg3)) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  rw [View.read_apply]
  show k0_pay1 (F := Ideal) (iblk0 V c 0 t) (iblk0 V c 1 t) (ix2 p q)
    = Cert.Spec.mm (V c main_arg0) (V c main_arg3) (((cfg0.win 3).blk t).view.emb (ix2 p q : S5000x128.Idx))
  rw [emb0_3, k0_pay1_blocks]

theorem flushed0_4_eq (c : Dev nD) (t : Fin cfg0.N) :
    (dat0 (F := Ideal) V c).flushed 4 t
      = ((cfg0.win 4).blk t).view.read (Elt Ideal)
          (Cert.Spec.scaledV (Cert.Spec.mm (V c main_arg0) (V c main_arg3)) (V c main_v13)) := by
  show (cfg0.win 4).cut (grid0.coords t) ((dat0 (F := Ideal) V c).after 4 t) = _
  rw [after0_4]
  unfold out0_4
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  rw [View.read_apply]
  show k0_pay2 (F := Ideal) (iblk0 V c 0 t) (iblk0 V c 1 t) (iblk0 V c 2 t) (ix2 p q)
    = Cert.Spec.scaledV (Cert.Spec.mm (V c main_arg0) (V c main_arg3)) (V c main_v13) (((cfg0.win 4).blk t).view.emb (ix2 p q : S5000x128.Idx))
  rw [emb0_4, k0_pay2_apply, k0_pay1_blocks, iblk0_2_apply, scaledV_apply]

def ptOf (i : S50000x128.Idx) : Fin cfg0.N := ⟨(i 0).val / 5000, by
  have h : cfg0.N = 10 := N_0
  have h0 : (i 0).val < 50000 := (i 0).isLt
  omega⟩

theorem cover0_3 (i : S50000x128.Idx) :
    ∃ t : Fin cfg0.N, (cfg0.win 3).flush t = true ∧ i ∈ ((cfg0.win 3).blk t).view.set := by
  refine ⟨ptOf i, flush0_3 _, ?_⟩
  show i ∈ ((View.whole main_v15_0).slice (win0_3.rect (ptOf i))).set
  rw [View.set_slice_whole, Rect.mem_set_unit]
  have h := idx_facts0 (ptOf i)
  have hv : (ptOf i).val = (i 0).val / 5000 := rfl
  have h0 : (i 0).val < 50000 := (i 0).isLt
  have h1 : (i 1).val < 128 := (i 1).isLt
  intro a
  match a with
  | ⟨0, _⟩ => show win0_3.index (ptOf i) (0 : Fin 2) * 5000 ≤ (i 0).val ∧ (i 0).val < win0_3.index (ptOf i) (0 : Fin 2) * 5000 + 5000; omega
  | ⟨1, _⟩ => show win0_3.index (ptOf i) (1 : Fin 2) * 128 ≤ (i 1).val ∧ (i 1).val < win0_3.index (ptOf i) (1 : Fin 2) * 128 + 128; omega

theorem cover0_4 (i : S50000x128.Idx) :
    ∃ t : Fin cfg0.N, (cfg0.win 4).flush t = true ∧ i ∈ ((cfg0.win 4).blk t).view.set := by
  refine ⟨ptOf i, flush0_4 _, ?_⟩
  show i ∈ ((View.whole main_v15_1).slice (win0_4.rect (ptOf i))).set
  rw [View.set_slice_whole, Rect.mem_set_unit]
  have h := idx_facts0 (ptOf i)
  have hv : (ptOf i).val = (i 0).val / 5000 := rfl
  have h0 : (i 0).val < 50000 := (i 0).isLt
  have h1 : (i 1).val < 128 := (i 1).isLt
  intro a
  match a with
  | ⟨0, _⟩ => show win0_4.index (ptOf i) (0 : Fin 2) * 5000 ≤ (i 0).val ∧ (i 0).val < win0_4.index (ptOf i) (0 : Fin 2) * 5000 + 5000; omega
  | ⟨1, _⟩ => show win0_4.index (ptOf i) (1 : Fin 2) * 128 ≤ (i 1).val ∧ (i 1).val < win0_4.index (ptOf i) (1 : Fin 2) * 128 + 128; omega

end Aux0

open Aux0

theorem final0_3 (c : Dev nD) :
    (dat0 (F := Ideal) V c).arrAt 3 cfg0.N = Cert.Spec.mm (V c main_arg0) (V c main_arg3) :=
  (dat0 (F := Ideal) V c).arrAt_eq_of_cover 3 _ (fun t _ => flushed0_3_eq V c t) cover0_3

theorem final0_4 (c : Dev nD) :
    (dat0 (F := Ideal) V c).arrAt 4 cfg0.N
      = Cert.Spec.scaledV (Cert.Spec.mm (V c main_arg0) (V c main_arg3)) (V c main_v13) :=
  (dat0 (F := Ideal) V c).arrAt_eq_of_cover 4 _ (fun t _ => flushed0_4_eq V c t) cover0_4

end Cert.KernelIdeal.HandV

end
-- ==== Proof.KI.Val1.lean ====
import proofs.«409879_j3573412790605_2_alg».proof.Proof.KI.Reg1
import proofs.«409879_j3573412790605_2_alg».proof.Proof.KI.ValLib

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

namespace Aux1

def comb1 (x0 : Vec Ideal S2000x128 .f32) (x2 : Vec Ideal S2000x1 .f32) (x1 : Vec Ideal S2000x128 .f32)
    (x3 : Vec Ideal S2000x1 .f32) (x4 : Vec Ideal S1x128 .f32) (p : Fin 2000) (k : Fin 128) : EReal :=
  max ((x0 (ix2 p k) * x2 (ix2 p (0 : Fin 1)) + x1 (ix2 p k) * x3 (ix2 p (0 : Fin 1))) + x4 (ix2 (0 : Fin 1) k)) Cert.Spec.zero

theorem k1_pay1_apply (x0 : Vec Ideal S2000x128 .f32) (x2 : Vec Ideal S2000x1 .f32) (x1 : Vec Ideal S2000x128 .f32)
    (x3 : Vec Ideal S2000x1 .f32) (x4 : Vec Ideal S1x128 .f32) (x5 : Vec Ideal S128x128 .f32) (p : Fin 2000) (q : Fin 128) :
    k1_pay1 (F := Ideal) x0 x2 x1 x3 x4 x5 (ix2 p q) = ∑ k : Fin 128, comb1 x0 x2 x1 x3 x4 p k * x5 (ix2 k q) := by
  unfold k1_pay1
  simp only [shapeCast_self]
  refine (matmul_plain_apply _ _ p q).trans (Finset.sum_congr rfl fun k _ => ?_)
  rw [truncf_apply, truncf_apply, maximumf_apply, addf_apply, addf_apply, mulf_apply, mulf_apply,
    bcol_apply, bcol_apply, broadcastTo_1b_ab_apply, broadcast_apply]
  rfl

theorem k1_pay2_apply (x0 : Vec Ideal S2000x128 .f32) (x2 : Vec Ideal S2000x1 .f32) (x1 : Vec Ideal S2000x128 .f32)
    (x3 : Vec Ideal S2000x1 .f32) (x4 : Vec Ideal S1x128 .f32) (x5 : Vec Ideal S128x128 .f32) (x6 : Vec Ideal S2000x1 .f32)
    (p : Fin 2000) (q : Fin 128) :
    k1_pay2 (F := Ideal) x0 x2 x1 x3 x4 x5 x6 (ix2 p q)
      = k1_pay1 (F := Ideal) x0 x2 x1 x3 x4 x5 (ix2 p q) * x6 (ix2 p (0 : Fin 1)) := by
  unfold k1_pay2
  simp only [shapeCast_self]
  rw [mulf_apply, bcol_apply]

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

theorem N1_lt (t : Fin cfg1.N) : t.val < 25 := by
  have h : cfg1.N = 25 := N_1
  have := t.isLt
  omega

def rowOf (t : Fin cfg1.N) (p : Fin 2000) : Fin 50000 := ⟨2000 * t.val + p.val, by have := N1_lt t; have := p.isLt; omega⟩

theorem emb1_6 (t : Fin cfg1.N) (p : Fin 2000) (q : Fin 128) :
    ((cfg1.win 6).blk t).view.emb (ix2 p q : S2000x128.Idx) = (ix2 (rowOf t p) q : S50000x128.Idx) := by
  have h := idx_facts1 t
  funext a; apply Fin.ext
  match a with
  | ⟨0, _⟩ => show win1_6.index t (0 : Fin 2) * 2000 + 1 * p.val = 2000 * t.val + p.val; omega
  | ⟨1, _⟩ => show win1_6.index t (1 : Fin 2) * 128 + 1 * q.val = q.val; omega

theorem emb1_7 (t : Fin cfg1.N) (p : Fin 2000) (q : Fin 128) :
    ((cfg1.win 7).blk t).view.emb (ix2 p q : S2000x128.Idx) = (ix2 (rowOf t p) q : S50000x128.Idx) := by
  have h := idx_facts1 t
  funext a; apply Fin.ext
  match a with
  | ⟨0, _⟩ => show win1_7.index t (0 : Fin 2) * 2000 + 1 * p.val = 2000 * t.val + p.val; omega
  | ⟨1, _⟩ => show win1_7.index t (1 : Fin 2) * 128 + 1 * q.val = q.val; omega

theorem iblk1_0_apply (c : Dev nD) (t : Fin cfg1.N) (p : Fin 2000) (k : Fin 128) :
    (iblk1 (F := Ideal) V c 0 t : S2000x128.Idx → EReal) (ix2 p k) = (V c main_v25 : S50000x128.Idx → EReal) (ix2 (rowOf t p) k) := by
  have h := idx_facts1 t
  unfold iblk1
  rw [View.read_apply]
  refine congrArg (V c main_v25 : S50000x128.Idx → EReal) (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * k.val = k.val; omega

theorem iblk1_1_apply (c : Dev nD) (t : Fin cfg1.N) (p : Fin 2000) (k : Fin 128) :
    (iblk1 (F := Ideal) V c 1 t : S2000x128.Idx → EReal) (ix2 p k) = (V c main_v15_0 : S50000x128.Idx → EReal) (ix2 (rowOf t p) k) := by
  have h := idx_facts1 t
  unfold iblk1
  rw [View.read_apply]
  refine congrArg (V c main_v15_0 : S50000x128.Idx → EReal) (funext fun a => Fin.ext ?_)
  match a with
  | ⟨0, _⟩ => show win1_1.index t (0 : Fin 2) * 2000 + 1 * p.val = 2000 * t.val + p.val; omega
  | ⟨1, _⟩ => show win1_1.index t (1 : Fin 2) * 128 + 1 * k.val = k.val; omega

theorem iblk1_2_apply (c : Dev nD) (t : Fin cfg1.N) (p : Fin 2000) :
    (iblk1 (F := Ideal) V c 2 t : S2000x1.Idx → EReal) (ix2 p (0 : Fin 1)) = (V c main_v13 : S50000x1.Idx → EReal) (ix2 (rowOf t p) (0 : Fin 1)) := by
  have h := idx_facts1 t
  unfold iblk1
  rw [View.read_apply]
  refine congrArg (V c main_v13 : S50000x1.Idx → EReal) (funext fun a => Fin.ext ?_)
  match a with
  | ⟨0, _⟩ => show win1_2.index t (0 : Fin 2) * 2000 + 1 * p.val = 2000 * t.val + p.val; omega
  | ⟨1, _⟩ => show win1_2.index t (1 : Fin 2) * 1 + 1 * 0 = 0; omega

theorem iblk1_3_apply (c : Dev nD) (t : Fin cfg1.N) (p : Fin 2000) :
    (iblk1 (F := Ideal) V c 3 t : S2000x1.Idx → EReal) (ix2 p (0 : Fin 1)) = (V c main_v14 : S50000x1.Idx → EReal) (ix2 (rowOf t p) (0 : Fin 1)) := by
  have h := idx_facts1 t
  unfold iblk1
  rw [View.read_apply]
  refine congrArg (V c main_v14 : S50000x1.Idx → EReal) (funext fun a => Fin.ext ?_)
  match a with
  | ⟨0, _⟩ => show win1_3.index t (0 : Fin 2) * 2000 + 1 * p.val = 2000 * t.val + p.val; omega
  | ⟨1, _⟩ => show win1_3.index t (1 : Fin 2) * 1 + 1 * 0 = 0; omega

theorem iblk1_4_apply (c : Dev nD) (t : Fin cfg1.N) (k : Fin 128) :
    (iblk1 (F := Ideal) V c 4 t : S1x128.Idx → EReal) (ix2 (0 : Fin 1) k) = (V c main_v26 : S1x128.Idx → EReal) (ix2 (0 : Fin 1) k) := by
  have h := idx_facts1 t
  unfold iblk1
  rw [View.read_apply]
  refine congrArg (V c main_v26 : S1x128.Idx → EReal) (funext fun a => Fin.ext ?_)
  match a with
  | ⟨0, _⟩ => show win1_4.index t (0 : Fin 2) * 1 + 1 * 0 = 0; omega
  | ⟨1, _⟩ => show win1_4.index t (1 : Fin 2) * 128 + 1 * k.val = k.val; omega

theorem iblk1_5_apply (c : Dev nD) (t : Fin cfg1.N) (k : Fin 128) (q : Fin 128) :
    (iblk1 (F := Ideal) V c 5 t : S128x128.Idx → EReal) (ix2 k q) = (V c main_arg5 : S128x128.Idx → EReal) (ix2 k q) := by
  have h := idx_facts1 t
  unfold iblk1
  rw [View.read_apply]
  refine congrArg (V c main_arg5 : S128x128.Idx → EReal) (funext fun a => Fin.ext ?_)
  match a with
  | ⟨0, _⟩ => show win1_5.index t (0 : Fin 2) * 128 + 1 * k.val = k.val; omega
  | ⟨1, _⟩ => show win1_5.index t (1 : Fin 2) * 128 + 1 * q.val = q.val; omega

theorem k1_pay1_blocks (c : Dev nD) (t : Fin cfg1.N) (p : Fin 2000) (q : Fin 128) :
    k1_pay1 (F := Ideal) (iblk1 V c 0 t) (iblk1 V c 2 t) (iblk1 V c 1 t) (iblk1 V c 3 t) (iblk1 V c 4 t) (iblk1 V c 5 t) (ix2 p q)
      = Cert.Spec.mm (Cert.Spec.combV (V c main_v25) (V c main_v15_0) (V c main_v13) (V c main_v14) (V c main_v26)) (V c main_arg5) (ix2 (rowOf t p) q) := by
  rw [k1_pay1_apply, mm_apply]
  refine Finset.sum_congr rfl fun k _ => ?_
  unfold comb1
  rw [iblk1_0_apply, iblk1_1_apply, iblk1_2_apply, iblk1_3_apply, iblk1_4_apply, iblk1_5_apply, combV_apply]

theorem flushed1_6_eq (c : Dev nD) (t : Fin cfg1.N) :
    (dat1 (F := Ideal) V c).flushed 6 t
      = ((cfg1.win 6).blk t).view.read (Elt Ideal)
          (Cert.Spec.mm (Cert.Spec.combV (V c main_v25) (V c main_v15_0) (V c main_v13) (V c main_v14) (V c main_v26)) (V c main_arg5)) := by
  show (cfg1.win 6).cut (grid1.coords t) ((dat1 (F := Ideal) V c).after 6 t) = _
  rw [after1_6]
  unfold out1_6
  rw [View.canon_unit_zero hz]
  simp only [View.ld_unit_zero (S := S2000x128) hz, View.ld_unit_zero (S := S2000x1) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  rw [View.read_apply]
  show k1_pay1 (F := Ideal) (iblk1 V c 0 t) (iblk1 V c 2 t) (iblk1 V c 1 t) (iblk1 V c 3 t) (iblk1 V c 4 t) (iblk1 V c 5 t) (ix2 p q)
    = Cert.Spec.mm (Cert.Spec.combV (V c main_v25) (V c main_v15_0) (V c main_v13) (V c main_v14) (V c main_v26)) (V c main_arg5)
        (((cfg1.win 6).blk t).view.emb (ix2 p q : S2000x128.Idx))
  rw [emb1_6, k1_pay1_blocks]

theorem flushed1_7_eq (c : Dev nD) (t : Fin cfg1.N) :
    (dat1 (F := Ideal) V c).flushed 7 t
      = ((cfg1.win 7).blk t).view.read (Elt Ideal)
          (Cert.Spec.scaledV (Cert.Spec.mm (Cert.Spec.combV (V c main_v25) (V c main_v15_0) (V c main_v13) (V c main_v14) (V c main_v26)) (V c main_arg5)) (V c main_v13)) := by
  show (cfg1.win 7).cut (grid1.coords t) ((dat1 (F := Ideal) V c).after 7 t) = _
  rw [after1_7]
  unfold out1_7
  rw [View.canon_unit_zero hz]
  simp only [View.ld_unit_zero (S := S2000x128) hz, View.ld_unit_zero (S := S2000x1) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  rw [View.read_apply]
  show k1_pay2 (F := Ideal) (iblk1 V c 0 t) (iblk1 V c 2 t) (iblk1 V c 1 t) (iblk1 V c 3 t) (iblk1 V c 4 t) (iblk1 V c 5 t) (iblk1 V c 2 t) (ix2 p q)
    = Cert.Spec.scaledV (Cert.Spec.mm (Cert.Spec.combV (V c main_v25) (V c main_v15_0) (V c main_v13) (V c main_v14) (V c main_v26)) (V c main_arg5)) (V c main_v13)
        (((cfg1.win 7).blk t).view.emb (ix2 p q : S2000x128.Idx))
  rw [emb1_7, k1_pay2_apply, k1_pay1_blocks, iblk1_2_apply, scaledV_apply]

def ptOf (i : S50000x128.Idx) : Fin cfg1.N := ⟨(i 0).val / 2000, by
  have h : cfg1.N = 25 := N_1
  have h0 : (i 0).val < 50000 := (i 0).isLt
  omega⟩

theorem covered1_6 (i : S50000x128.Idx) :
    ∃ t : Fin cfg1.N, (cfg1.win 6).flush t = true ∧ i ∈ ((cfg1.win 6).blk t).view.set := by
  refine ⟨ptOf i, flush1_6 _, ?_⟩
  show i ∈ ((View.whole main_v27_0).slice (win1_6.rect (ptOf i))).set
  rw [View.set_slice_whole, Rect.mem_set_unit]
  have h := idx_facts1 (ptOf i)
  have hv : (ptOf i).val = (i 0).val / 2000 := rfl
  have h0 : (i 0).val < 50000 := (i 0).isLt
  have h1 : (i 1).val < 128 := (i 1).isLt
  intro a
  match a with
  | ⟨0, _⟩ => show win1_6.index (ptOf i) (0 : Fin 2) * 2000 ≤ (i 0).val ∧ (i 0).val < win1_6.index (ptOf i) (0 : Fin 2) * 2000 + 2000; omega
  | ⟨1, _⟩ => show win1_6.index (ptOf i) (1 : Fin 2) * 128 ≤ (i 1).val ∧ (i 1).val < win1_6.index (ptOf i) (1 : Fin 2) * 128 + 128; omega

theorem covered1_7 (i : S50000x128.Idx) :
    ∃ t : Fin cfg1.N, (cfg1.win 7).flush t = true ∧ i ∈ ((cfg1.win 7).blk t).view.set := by
  refine ⟨ptOf i, flush1_7 _, ?_⟩
  show i ∈ ((View.whole main_v27_1).slice (win1_7.rect (ptOf i))).set
  rw [View.set_slice_whole, Rect.mem_set_unit]
  have h := idx_facts1 (ptOf i)
  have hv : (ptOf i).val = (i 0).val / 2000 := rfl
  have h0 : (i 0).val < 50000 := (i 0).isLt
  have h1 : (i 1).val < 128 := (i 1).isLt
  intro a
  match a with
  | ⟨0, _⟩ => show win1_7.index (ptOf i) (0 : Fin 2) * 2000 ≤ (i 0).val ∧ (i 0).val < win1_7.index (ptOf i) (0 : Fin 2) * 2000 + 2000; omega
  | ⟨1, _⟩ => show win1_7.index (ptOf i) (1 : Fin 2) * 128 ≤ (i 1).val ∧ (i 1).val < win1_7.index (ptOf i) (1 : Fin 2) * 128 + 128; omega

end Aux1

open Aux1

theorem final1_6 (c : Dev nD) :
    (dat1 (F := Ideal) V c).arrAt 6 cfg1.N
      = Cert.Spec.mm (Cert.Spec.combV (V c main_v25) (V c main_v15_0) (V c main_v13) (V c main_v14) (V c main_v26)) (V c main_arg5) :=
  (dat1 (F := Ideal) V c).arrAt_eq_of_cover 6 _ (fun t _ => flushed1_6_eq V c t) covered1_6

theorem final1_7 (c : Dev nD) :
    (dat1 (F := Ideal) V c).arrAt 7 cfg1.N
      = Cert.Spec.scaledV (Cert.Spec.mm (Cert.Spec.combV (V c main_v25) (V c main_v15_0) (V c main_v13) (V c main_v14) (V c main_v26)) (V c main_arg5)) (V c main_v13) :=
  (dat1 (F := Ideal) V c).arrAt_eq_of_cover 7 _ (fun t _ => flushed1_7_eq V c t) covered1_7

end Cert.KernelIdeal.HandV

end
-- ==== Proof.KI.Val2.lean ====
import proofs.«409879_j3573412790605_2_alg».proof.Proof.KI.Reg2
import proofs.«409879_j3573412790605_2_alg».proof.Proof.KI.ValLib

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

namespace Aux2

def comb2 (x0 : Vec Ideal S2000x128 .f32) (x2 : Vec Ideal S2000x1 .f32) (x1 : Vec Ideal S2000x128 .f32)
    (x3 : Vec Ideal S2000x1 .f32) (x4 : Vec Ideal S1x128 .f32) (p : Fin 2000) (k : Fin 128) : EReal :=
  max ((x0 (ix2 p k) * x2 (ix2 p (0 : Fin 1)) + x1 (ix2 p k) * x3 (ix2 p (0 : Fin 1))) + x4 (ix2 (0 : Fin 1) k)) Cert.Spec.zero

theorem k2_pay1_apply (x0 : Vec Ideal S2000x128 .f32) (x2 : Vec Ideal S2000x1 .f32) (x1 : Vec Ideal S2000x128 .f32)
    (x3 : Vec Ideal S2000x1 .f32) (x4 : Vec Ideal S1x128 .f32) (x5 : Vec Ideal S128x128 .f32) (p : Fin 2000) (q : Fin 128) :
    k2_pay1 (F := Ideal) x0 x2 x1 x3 x4 x5 (ix2 p q) = ∑ k : Fin 128, comb2 x0 x2 x1 x3 x4 p k * x5 (ix2 k q) := by
  unfold k2_pay1
  simp only [shapeCast_self]
  refine (matmul_plain_apply _ _ p q).trans (Finset.sum_congr rfl fun k _ => ?_)
  rw [truncf_apply, truncf_apply, maximumf_apply, addf_apply, addf_apply, mulf_apply, mulf_apply,
    bcol_apply, bcol_apply, broadcastTo_1b_ab_apply, broadcast_apply]
  rfl

theorem k2_pay2_apply (x0 : Vec Ideal S2000x128 .f32) (x2 : Vec Ideal S2000x1 .f32) (x1 : Vec Ideal S2000x128 .f32)
    (x3 : Vec Ideal S2000x1 .f32) (x4 : Vec Ideal S1x128 .f32) (x5 : Vec Ideal S128x128 .f32) (x6 : Vec Ideal S2000x1 .f32)
    (p : Fin 2000) (q : Fin 128) :
    k2_pay2 (F := Ideal) x0 x2 x1 x3 x4 x5 x6 (ix2 p q)
      = k2_pay1 (F := Ideal) x0 x2 x1 x3 x4 x5 (ix2 p q) * x6 (ix2 p (0 : Fin 1)) := by
  unfold k2_pay2
  simp only [shapeCast_self]
  rw [mulf_apply, bcol_apply]

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

theorem N2_lt (t : Fin cfg2.N) : t.val < 25 := by
  have h : cfg2.N = 25 := N_2
  have := t.isLt
  omega

def rowOf (t : Fin cfg2.N) (p : Fin 2000) : Fin 50000 := ⟨2000 * t.val + p.val, by have := N2_lt t; have := p.isLt; omega⟩

theorem emb2_6 (t : Fin cfg2.N) (p : Fin 2000) (q : Fin 128) :
    ((cfg2.win 6).blk t).view.emb (ix2 p q : S2000x128.Idx) = (ix2 (rowOf t p) q : S50000x128.Idx) := by
  have h := idx_facts2 t
  funext a; apply Fin.ext
  match a with
  | ⟨0, _⟩ => show win2_6.index t (0 : Fin 2) * 2000 + 1 * p.val = 2000 * t.val + p.val; omega
  | ⟨1, _⟩ => show win2_6.index t (1 : Fin 2) * 128 + 1 * q.val = q.val; omega

theorem emb2_7 (t : Fin cfg2.N) (p : Fin 2000) (q : Fin 128) :
    ((cfg2.win 7).blk t).view.emb (ix2 p q : S2000x128.Idx) = (ix2 (rowOf t p) q : S50000x128.Idx) := by
  have h := idx_facts2 t
  funext a; apply Fin.ext
  match a with
  | ⟨0, _⟩ => show win2_7.index t (0 : Fin 2) * 2000 + 1 * p.val = 2000 * t.val + p.val; omega
  | ⟨1, _⟩ => show win2_7.index t (1 : Fin 2) * 128 + 1 * q.val = q.val; omega

theorem iblk2_0_apply (c : Dev nD) (t : Fin cfg2.N) (p : Fin 2000) (k : Fin 128) :
    (iblk2 (F := Ideal) V c 0 t : S2000x128.Idx → EReal) (ix2 p k) = (V c main_v37 : S50000x128.Idx → EReal) (ix2 (rowOf t p) k) := by
  have h := idx_facts2 t
  unfold iblk2
  rw [View.read_apply]
  refine congrArg (V c main_v37 : S50000x128.Idx → EReal) (funext fun a => Fin.ext ?_)
  match a with
  | ⟨0, _⟩ => show win2_0.index t (0 : Fin 2) * 2000 + 1 * p.val = 2000 * t.val + p.val; omega
  | ⟨1, _⟩ => show win2_0.index t (1 : Fin 2) * 128 + 1 * k.val = k.val; omega

theorem iblk2_1_apply (c : Dev nD) (t : Fin cfg2.N) (p : Fin 2000) (k : Fin 128) :
    (iblk2 (F := Ideal) V c 1 t : S2000x128.Idx → EReal) (ix2 p k) = (V c main_v27_0 : S50000x128.Idx → EReal) (ix2 (rowOf t p) k) := by
  have h := idx_facts2 t
  unfold iblk2
  rw [View.read_apply]
  refine congrArg (V c main_v27_0 : S50000x128.Idx → EReal) (funext fun a => Fin.ext ?_)
  match a with
  | ⟨0, _⟩ => show win2_1.index t (0 : Fin 2) * 2000 + 1 * p.val = 2000 * t.val + p.val; omega
  | ⟨1, _⟩ => show win2_1.index t (1 : Fin 2) * 128 + 1 * k.val = k.val; omega

theorem iblk2_2_apply (c : Dev nD) (t : Fin cfg2.N) (p : Fin 2000) :
    (iblk2 (F := Ideal) V c 2 t : S2000x1.Idx → EReal) (ix2 p (0 : Fin 1)) = (V c main_v13 : S50000x1.Idx → EReal) (ix2 (rowOf t p) (0 : Fin 1)) := by
  have h := idx_facts2 t
  unfold iblk2
  rw [View.read_apply]
  refine congrArg (V c main_v13 : S50000x1.Idx → EReal) (funext fun a => Fin.ext ?_)
  match a with
  | ⟨0, _⟩ => show win2_2.index t (0 : Fin 2) * 2000 + 1 * p.val = 2000 * t.val + p.val; omega
  | ⟨1, _⟩ => show win2_2.index t (1 : Fin 2) * 1 + 1 * 0 = 0; omega

theorem iblk2_3_apply (c : Dev nD) (t : Fin cfg2.N) (p : Fin 2000) :
    (iblk2 (F := Ideal) V c 3 t : S2000x1.Idx → EReal) (ix2 p (0 : Fin 1)) = (V c main_v14 : S50000x1.Idx → EReal) (ix2 (rowOf t p) (0 : Fin 1)) := by
  have h := idx_facts2 t
  unfold iblk2
  rw [View.read_apply]
  refine congrArg (V c main_v14 : S50000x1.Idx → EReal) (funext fun a => Fin.ext ?_)
  match a with
  | ⟨0, _⟩ => show win2_3.index t (0 : Fin 2) * 2000 + 1 * p.val = 2000 * t.val + p.val; omega
  | ⟨1, _⟩ => show win2_3.index t (1 : Fin 2) * 1 + 1 * 0 = 0; omega

theorem iblk2_4_apply (c : Dev nD) (t : Fin cfg2.N) (k : Fin 128) :
    (iblk2 (F := Ideal) V c 4 t : S1x128.Idx → EReal) (ix2 (0 : Fin 1) k) = (V c main_v38 : S1x128.Idx → EReal) (ix2 (0 : Fin 1) k) := by
  have h := idx_facts2 t
  unfold iblk2
  rw [View.read_apply]
  refine congrArg (V c main_v38 : S1x128.Idx → EReal) (funext fun a => Fin.ext ?_)
  match a with
  | ⟨0, _⟩ => show win2_4.index t (0 : Fin 2) * 1 + 1 * 0 = 0; omega
  | ⟨1, _⟩ => show win2_4.index t (1 : Fin 2) * 128 + 1 * k.val = k.val; omega

theorem iblk2_5_apply (c : Dev nD) (t : Fin cfg2.N) (k : Fin 128) (q : Fin 128) :
    (iblk2 (F := Ideal) V c 5 t : S128x128.Idx → EReal) (ix2 k q) = (V c main_arg7 : S128x128.Idx → EReal) (ix2 k q) := by
  have h := idx_facts2 t
  unfold iblk2
  rw [View.read_apply]
  refine congrArg (V c main_arg7 : S128x128.Idx → EReal) (funext fun a => Fin.ext ?_)
  match a with
  | ⟨0, _⟩ => show win2_5.index t (0 : Fin 2) * 128 + 1 * k.val = k.val; omega
  | ⟨1, _⟩ => show win2_5.index t (1 : Fin 2) * 128 + 1 * q.val = q.val; omega

theorem k2_pay1_blocks (c : Dev nD) (t : Fin cfg2.N) (p : Fin 2000) (q : Fin 128) :
    k2_pay1 (F := Ideal) (iblk2 V c 0 t) (iblk2 V c 2 t) (iblk2 V c 1 t) (iblk2 V c 3 t) (iblk2 V c 4 t) (iblk2 V c 5 t) (ix2 p q)
      = Cert.Spec.mm (Cert.Spec.combV (V c main_v37) (V c main_v27_0) (V c main_v13) (V c main_v14) (V c main_v38)) (V c main_arg7) (ix2 (rowOf t p) q) := by
  rw [k2_pay1_apply, mm_apply]
  refine Finset.sum_congr rfl fun k _ => ?_
  unfold comb2
  rw [iblk2_0_apply, iblk2_1_apply, iblk2_2_apply, iblk2_3_apply, iblk2_4_apply, iblk2_5_apply, combV_apply]

theorem flushed2_6_eq (c : Dev nD) (t : Fin cfg2.N) :
    (dat2 (F := Ideal) V c).flushed 6 t
      = ((cfg2.win 6).blk t).view.read (Elt Ideal)
          (Cert.Spec.mm (Cert.Spec.combV (V c main_v37) (V c main_v27_0) (V c main_v13) (V c main_v14) (V c main_v38)) (V c main_arg7)) := by
  show (cfg2.win 6).cut (grid2.coords t) ((dat2 (F := Ideal) V c).after 6 t) = _
  rw [after2_6]
  unfold out2_6
  rw [View.canon_unit_zero hz]
  simp only [View.ld_unit_zero (S := S2000x128) hz, View.ld_unit_zero (S := S2000x1) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  rw [View.read_apply]
  show k2_pay1 (F := Ideal) (iblk2 V c 0 t) (iblk2 V c 2 t) (iblk2 V c 1 t) (iblk2 V c 3 t) (iblk2 V c 4 t) (iblk2 V c 5 t) (ix2 p q)
    = Cert.Spec.mm (Cert.Spec.combV (V c main_v37) (V c main_v27_0) (V c main_v13) (V c main_v14) (V c main_v38)) (V c main_arg7)
        (((cfg2.win 6).blk t).view.emb (ix2 p q : S2000x128.Idx))
  rw [emb2_6, k2_pay1_blocks]

theorem flushed2_7_eq (c : Dev nD) (t : Fin cfg2.N) :
    (dat2 (F := Ideal) V c).flushed 7 t
      = ((cfg2.win 7).blk t).view.read (Elt Ideal)
          (Cert.Spec.scaledV (Cert.Spec.mm (Cert.Spec.combV (V c main_v37) (V c main_v27_0) (V c main_v13) (V c main_v14) (V c main_v38)) (V c main_arg7)) (V c main_v13)) := by
  show (cfg2.win 7).cut (grid2.coords t) ((dat2 (F := Ideal) V c).after 7 t) = _
  rw [after2_7]
  unfold out2_7
  rw [View.canon_unit_zero hz]
  simp only [View.ld_unit_zero (S := S2000x128) hz, View.ld_unit_zero (S := S2000x1) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  rw [View.read_apply]
  show k2_pay2 (F := Ideal) (iblk2 V c 0 t) (iblk2 V c 2 t) (iblk2 V c 1 t) (iblk2 V c 3 t) (iblk2 V c 4 t) (iblk2 V c 5 t) (iblk2 V c 2 t) (ix2 p q)
    = Cert.Spec.scaledV (Cert.Spec.mm (Cert.Spec.combV (V c main_v37) (V c main_v27_0) (V c main_v13) (V c main_v14) (V c main_v38)) (V c main_arg7)) (V c main_v13)
        (((cfg2.win 7).blk t).view.emb (ix2 p q : S2000x128.Idx))
  rw [emb2_7, k2_pay2_apply, k2_pay1_blocks, iblk2_2_apply, scaledV_apply]

def ptOf (i : S50000x128.Idx) : Fin cfg2.N := ⟨(i 0).val / 2000, by
  have h : cfg2.N = 25 := N_2
  have h0 : (i 0).val < 50000 := (i 0).isLt
  omega⟩

theorem covered2_6 (i : S50000x128.Idx) :
    ∃ t : Fin cfg2.N, (cfg2.win 6).flush t = true ∧ i ∈ ((cfg2.win 6).blk t).view.set := by
  refine ⟨ptOf i, flush2_6 _, ?_⟩
  show i ∈ ((View.whole main_v39_0).slice (win2_6.rect (ptOf i))).set
  rw [View.set_slice_whole, Rect.mem_set_unit]
  have h := idx_facts2 (ptOf i)
  have hv : (ptOf i).val = (i 0).val / 2000 := rfl
  have h0 : (i 0).val < 50000 := (i 0).isLt
  have h1 : (i 1).val < 128 := (i 1).isLt
  intro a
  match a with
  | ⟨0, _⟩ => show win2_6.index (ptOf i) (0 : Fin 2) * 2000 ≤ (i 0).val ∧ (i 0).val < win2_6.index (ptOf i) (0 : Fin 2) * 2000 + 2000; omega
  | ⟨1, _⟩ => show win2_6.index (ptOf i) (1 : Fin 2) * 128 ≤ (i 1).val ∧ (i 1).val < win2_6.index (ptOf i) (1 : Fin 2) * 128 + 128; omega

theorem covered2_7 (i : S50000x128.Idx) :
    ∃ t : Fin cfg2.N, (cfg2.win 7).flush t = true ∧ i ∈ ((cfg2.win 7).blk t).view.set := by
  refine ⟨ptOf i, flush2_7 _, ?_⟩
  show i ∈ ((View.whole main_v39_1).slice (win2_7.rect (ptOf i))).set
  rw [View.set_slice_whole, Rect.mem_set_unit]
  have h := idx_facts2 (ptOf i)
  have hv : (ptOf i).val = (i 0).val / 2000 := rfl
  have h0 : (i 0).val < 50000 := (i 0).isLt
  have h1 : (i 1).val < 128 := (i 1).isLt
  intro a
  match a with
  | ⟨0, _⟩ => show win2_7.index (ptOf i) (0 : Fin 2) * 2000 ≤ (i 0).val ∧ (i 0).val < win2_7.index (ptOf i) (0 : Fin 2) * 2000 + 2000; omega
  | ⟨1, _⟩ => show win2_7.index (ptOf i) (1 : Fin 2) * 128 ≤ (i 1).val ∧ (i 1).val < win2_7.index (ptOf i) (1 : Fin 2) * 128 + 128; omega

end Aux2

open Aux2

theorem final2_6 (c : Dev nD) :
    (dat2 (F := Ideal) V c).arrAt 6 cfg2.N
      = Cert.Spec.mm (Cert.Spec.combV (V c main_v37) (V c main_v27_0) (V c main_v13) (V c main_v14) (V c main_v38)) (V c main_arg7) :=
  (dat2 (F := Ideal) V c).arrAt_eq_of_cover 6 _ (fun t _ => flushed2_6_eq V c t) covered2_6

theorem final2_7 (c : Dev nD) :
    (dat2 (F := Ideal) V c).arrAt 7 cfg2.N
      = Cert.Spec.scaledV (Cert.Spec.mm (Cert.Spec.combV (V c main_v37) (V c main_v27_0) (V c main_v13) (V c main_v14) (V c main_v38)) (V c main_arg7)) (V c main_v13) :=
  (dat2 (F := Ideal) V c).arrAt_eq_of_cover 7 _ (fun t _ => flushed2_7_eq V c t) covered2_7

end Cert.KernelIdeal.HandV

end
-- ==== Proof.KI.Val3Pay.lean ====
import proofs.«409879_j3573412790605_2_alg».proof.Proof.Gen.KernelIdeal.Skeleton
import proofs.«409879_j3573412790605_2_alg».proof.Proof.SpecCols
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Affine
import Mathlib.Logic.Equiv.Fin.Basic
import Mathlib.Data.Fintype.BigOperators

noncomputable section

namespace Cert.KernelIdeal.HandV

open Cert.KernelIdeal Cert.KernelIdeal.Gen
open Idealize.ShloMosaic Idealize.ShloMosaic.ValueIdx

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem onehot_entry (x y : BitVec 32) :
    ((((IntOp.cmpi .eq x y).setWidth 32).toInt : ℝ) : EReal) = if x = y then (1 : EReal) else 0 := by
  by_cases h : x = y
  · rw [if_pos h, IntOp.cmpi_eq.mpr h]
    have e : ((1#1 : BitVec 1).setWidth 32).toInt = 1 := by decide
    rw [e]; simp
  · rw [if_neg h, eq_zero_of_ne_one (fun h1 => h (IntOp.cmpi_eq.mp h1))]
    have e : ((0#1 : BitVec 1).setWidth 32).toInt = 0 := by decide
    rw [e]; simp

theorem k3_pay2_apply (j : S64x128.Idx) : k3_pay2 (F := Ideal) j = Cert.Spec.zero := by
  unfold k3_pay2
  rw [shapeCast_self]
  rfl

theorem lhs_pool_0 (i : S64x128.Idx) (q : dot_S64x2000_S2000x128_S64x128_1_0_0_1_n_n.contr.Idx) :
    (dot_S64x2000_S2000x128_S64x128_1_0_0_1_n_n.lhsIdx i q 0).val = (i 0).val := by
  unfold DotDims.lhsIdx
  rw [dif_neg (show ¬(0 : Fin S64x2000.rank) ∈ dot_S64x2000_S2000x128_S64x128_1_0_0_1_n_n.lhsBatch by decide), dif_pos (show (0 : Fin S64x2000.rank) ∈ dot_S64x2000_S2000x128_S64x128_1_0_0_1_n_n.lhsNonContracting by decide)]
  rfl
theorem lhs_pool_1 (i : S64x128.Idx) (q : dot_S64x2000_S2000x128_S64x128_1_0_0_1_n_n.contr.Idx) :
    (dot_S64x2000_S2000x128_S64x128_1_0_0_1_n_n.lhsIdx i q 1).val = (q ⟨0, by decide⟩).val :=
  dot_S64x2000_S2000x128_S64x128_1_0_0_1_n_n.lhsIdx_val_of_single rfl i q
theorem rhs_pool_0 (i : S64x128.Idx) (q : dot_S64x2000_S2000x128_S64x128_1_0_0_1_n_n.contr.Idx) :
    (dot_S64x2000_S2000x128_S64x128_1_0_0_1_n_n.rhsIdx i q 0).val = (q ⟨0, by decide⟩).val :=
  dot_S64x2000_S2000x128_S64x128_1_0_0_1_n_n.rhsIdx_val_of_single rfl i q
theorem rhs_pool_1 (i : S64x128.Idx) (q : dot_S64x2000_S2000x128_S64x128_1_0_0_1_n_n.contr.Idx) :
    (dot_S64x2000_S2000x128_S64x128_1_0_0_1_n_n.rhsIdx i q 1).val = (i 1).val := by
  unfold DotDims.rhsIdx
  rw [dif_neg (show ¬(1 : Fin S2000x128.rank) ∈ dot_S64x2000_S2000x128_S64x128_1_0_0_1_n_n.rhsBatch by decide), dif_pos (show (1 : Fin S2000x128.rank) ∈ dot_S64x2000_S2000x128_S64x128_1_0_0_1_n_n.rhsNonContracting by decide)]
  rfl

theorem k3_pay3_apply (v3 : Vec Ideal S2000x128 .f32) (v5 : Vec Ideal S2000x1 .f32) (v9 : Vec Ideal S2000x128 .f32)
    (v11 : Vec Ideal S2000x1 .f32) (v16 : Vec Ideal S1x128 .f32) (v23 : Vec Ideal S2000x1 .i32) (v29 : Vec Ideal S64x128 .f32)
    (g : Fin 64) (f : Fin 128) :
    k3_pay3 (F := Ideal) v3 v5 v9 v11 v16 v23 v29 (ix2 g f)
      = v29 (ix2 g f) + ∑ k : Fin 2000, (if v23 (ix2 k (0 : Fin 1)) = BitVec.ofNat 32 g.val then (1 : EReal) else 0)
          * max ((v3 (ix2 k f) * v5 (ix2 k (0 : Fin 1)) + v9 (ix2 k f) * v11 (ix2 k (0 : Fin 1))) + v16 (ix2 (0 : Fin 1) f)) Cert.Spec.zero := by
  unfold k3_pay3
  simp only [shapeCast_self, addf_apply]
  congr 1
  simp only [matmul]
  rw [Ideal.matmul_constant_zero_apply, ← Equiv.sum_comp (contrEquiv1 dot_S64x2000_S2000x128_S64x128_1_0_0_1_n_n 2000 rfl rfl).symm]
  refine Finset.sum_congr rfl fun k _ => ?_
  have hk := contrEquiv1_symm_val dot_S64x2000_S2000x128_S64x128_1_0_0_1_n_n 2000 rfl rfl k
  have el : dot_S64x2000_S2000x128_S64x128_1_0_0_1_n_n.lhsIdx (ix2 g f) ((contrEquiv1 dot_S64x2000_S2000x128_S64x128_1_0_0_1_n_n 2000 rfl rfl).symm k) = ix2 g k := funext fun a => Fin.ext (by
    match a with
    | ⟨0, _⟩ => exact lhs_pool_0 _ _
    | ⟨1, _⟩ => exact (lhs_pool_1 _ _).trans hk)
  have er : dot_S64x2000_S2000x128_S64x128_1_0_0_1_n_n.rhsIdx (ix2 g f) ((contrEquiv1 dot_S64x2000_S2000x128_S64x128_1_0_0_1_n_n 2000 rfl rfl).symm k) = ix2 k f := funext fun a => Fin.ext (by
    match a with
    | ⟨0, _⟩ => exact (rhs_pool_0 _ _).trans hk
    | ⟨1, _⟩ => exact rhs_pool_1 _ _)
  rw [el, er, transpose_ix2_apply, sitofp_apply, extui_apply]
  have e1 : cmpi CmpIPredicate.eq (broadcastTo S2000x64 v23 broadcasts_S2000x1_S2000x64) (iota Kind.tc S2000x64 32 [1] iota_S2000x64_d1_w32) (ix2 k g)
      = IntOp.cmpi .eq (v23 (ix2 k (0 : Fin 1))) (BitVec.ofNat 32 g.val) := by
    show IntOp.cmpi .eq (broadcastTo S2000x64 v23 broadcasts_S2000x1_S2000x64 (ix2 k g)) (iota Kind.tc S2000x64 32 [1] iota_S2000x64_d1_w32 (ix2 k g)) = _
    rw [broadcastTo_a1_ab_apply, iota_single_apply]
  rw [e1]
  show ((((IntOp.cmpi .eq (v23 (ix2 k (0 : Fin 1))) (BitVec.ofNat 32 g.val)).setWidth 32).toInt : ℝ) : EReal) * _ = _
  rw [onehot_entry, maximumf_apply, addf_apply, addf_apply, mulf_apply, mulf_apply, broadcastTo_a1_ab_apply, broadcastTo_a1_ab_apply,
    broadcastTo_1b_ab_apply, broadcast_apply]
  rfl

theorem lhs_head_0 (i : S64x10.Idx) (q : dot_S64x128_S128x10_S64x10_1_0_0_1_n_n.contr.Idx) :
    (dot_S64x128_S128x10_S64x10_1_0_0_1_n_n.lhsIdx i q 0).val = (i 0).val := by
  unfold DotDims.lhsIdx
  rw [dif_neg (show ¬(0 : Fin S64x128.rank) ∈ dot_S64x128_S128x10_S64x10_1_0_0_1_n_n.lhsBatch by decide), dif_pos (show (0 : Fin S64x128.rank) ∈ dot_S64x128_S128x10_S64x10_1_0_0_1_n_n.lhsNonContracting by decide)]
  rfl
theorem lhs_head_1 (i : S64x10.Idx) (q : dot_S64x128_S128x10_S64x10_1_0_0_1_n_n.contr.Idx) :
    (dot_S64x128_S128x10_S64x10_1_0_0_1_n_n.lhsIdx i q 1).val = (q ⟨0, by decide⟩).val :=
  dot_S64x128_S128x10_S64x10_1_0_0_1_n_n.lhsIdx_val_of_single rfl i q
theorem rhs_head_0 (i : S64x10.Idx) (q : dot_S64x128_S128x10_S64x10_1_0_0_1_n_n.contr.Idx) :
    (dot_S64x128_S128x10_S64x10_1_0_0_1_n_n.rhsIdx i q 0).val = (q ⟨0, by decide⟩).val :=
  dot_S64x128_S128x10_S64x10_1_0_0_1_n_n.rhsIdx_val_of_single rfl i q
theorem rhs_head_1 (i : S64x10.Idx) (q : dot_S64x128_S128x10_S64x10_1_0_0_1_n_n.contr.Idx) :
    (dot_S64x128_S128x10_S64x10_1_0_0_1_n_n.rhsIdx i q 1).val = (i 1).val := by
  unfold DotDims.rhsIdx
  rw [dif_neg (show ¬(1 : Fin S128x10.rank) ∈ dot_S64x128_S128x10_S64x10_1_0_0_1_n_n.rhsBatch by decide), dif_pos (show (1 : Fin S128x10.rank) ∈ dot_S64x128_S128x10_S64x10_1_0_0_1_n_n.rhsNonContracting by decide)]
  rfl

theorem k3_pay1_apply (v39 : Vec Ideal S64x128 .f32) (v40 : Vec Ideal S64x1 .f32) (v45 : Vec Ideal S128x10 .f32)
    (v48 : Vec Ideal S1x10 .f32) (g : Fin 64) (o : Fin 10) :
    k3_pay1 (F := Ideal) v39 v40 v45 v48 (ix2 g o)
      = (∑ k : Fin 128, Ideal.div (v39 (ix2 g k)) (v40 (ix2 g (0 : Fin 1))) * v45 (ix2 k o)) + v48 (ix2 (0 : Fin 1) o) := by
  unfold k3_pay1
  simp only [shapeCast_self, addf_apply, broadcastTo_1b_ab_apply]
  congr 1
  simp only [matmul]
  rw [Ideal.matmul_constant_zero_apply, ← Equiv.sum_comp (contrEquiv1 dot_S64x128_S128x10_S64x10_1_0_0_1_n_n 128 rfl rfl).symm]
  refine Finset.sum_congr rfl fun k _ => ?_
  have hk := contrEquiv1_symm_val dot_S64x128_S128x10_S64x10_1_0_0_1_n_n 128 rfl rfl k
  have el : dot_S64x128_S128x10_S64x10_1_0_0_1_n_n.lhsIdx (ix2 g o) ((contrEquiv1 dot_S64x128_S128x10_S64x10_1_0_0_1_n_n 128 rfl rfl).symm k) = ix2 g k := funext fun a => Fin.ext (by
    match a with
    | ⟨0, _⟩ => exact lhs_head_0 _ _
    | ⟨1, _⟩ => exact (lhs_head_1 _ _).trans hk)
  have er : dot_S64x128_S128x10_S64x10_1_0_0_1_n_n.rhsIdx (ix2 g o) ((contrEquiv1 dot_S64x128_S128x10_S64x10_1_0_0_1_n_n 128 rfl rfl).symm k) = ix2 k o := funext fun a => Fin.ext (by
    match a with
    | ⟨0, _⟩ => exact (rhs_head_0 _ _).trans hk
    | ⟨1, _⟩ => exact rhs_head_1 _ _)
  rw [el, er, truncf_apply, truncf_apply, divf_apply, broadcastTo_a1_ab_apply]

theorem sum_blocks (G : Fin 50000 → EReal) :
    ∑ t : Fin 25, ∑ k : Fin 2000, G ⟨2000 * t.val + k.val, by have := t.isLt; have := k.isLt; omega⟩ = ∑ r : Fin 50000, G r := by
  rw [← Fintype.sum_prod_type' (f := fun (t : Fin 25) (k : Fin 2000) => G ⟨2000 * t.val + k.val, by have := t.isLt; have := k.isLt; omega⟩)]
  refine Fintype.sum_equiv (finProdFinEquiv (m := 25) (n := 2000)) _ _ fun p => congrArg G (Fin.ext ?_)
  show 2000 * p.1.val + p.2.val = p.2.val + 2000 * p.1.val
  omega

end Cert.KernelIdeal.HandV
-- ==== Proof.KI.Val3.lean ====
import proofs.«409879_j3573412790605_2_alg».proof.Proof.KI.Reg3
import proofs.«409879_j3573412790605_2_alg».proof.Proof.KI.Val3Pay
import proofs.«409879_j3573412790605_2_alg».proof.Proof.SpecCols
import Idealize.ShloMosaic.Lib.Pipeline.Value
import Idealize.ShloMosaic.Lib.Tactic
import Mathlib.Tactic.FinCases
set_option maxRecDepth 16384
noncomputable section
namespace Cert.KernelIdeal.HandV
open Cert.KernelIdeal Cert.KernelIdeal.Gen Cert.KernelIdeal.Hand
open Idealize.ShloMosaic Idealize.ShloMosaic.TcCoe Idealize.ShloMosaic.Tactic Idealize.ShloMosaic.ValueIdx
open Idealize.ShloMosaic.Pipeline (Dat Cfg Window)

variable {F : FTy → Type} [FloatOps F]

theorem hz3 : (![0, 0] : Fin 2 → Nat) = fun _ => 0 := funext fun a => by fin_cases a <;> rfl

section
variable (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S2000x1 .f32) (harg4 : arg4.IsWhole) (arg5 : Memref sig .tc .vmem S1x128 .f32) (harg5 : arg5.IsWhole) (arg6 : Memref sig .tc .vmem S2000x1 .i32) (harg6 : arg6.IsWhole) (arg7 : Memref sig .tc .vmem S64x1 .f32) (harg7 : arg7.IsWhole) (arg8 : Memref sig .tc .vmem S128x10 .f32) (harg8 : arg8.IsWhole) (arg9 : Memref sig .tc .vmem S1x10 .f32) (harg9 : arg9.IsWhole) (arg10 : Memref sig .tc .vmem S64x10 .f32) (harg10 : arg10.IsWhole) (arg11 : Memref sig .tc .vmem S64x128 .f32) (harg11 : arg11.IsWhole)
  (x0 : Vec F S2000x128 .f32) (x1 : Vec F S2000x128 .f32) (x2 : Vec F S2000x1 .f32) (x3 : Vec F S2000x1 .f32) (x4 : Vec F S1x128 .f32) (x5 : Vec F S2000x1 .i32) (x6 : Vec F S64x1 .f32) (x7 : Vec F S128x10 .f32) (x8 : Vec F S1x10 .f32)

-- The accumulator pieces' canonical contents in each case: the accumulate step over the zero block, or over the previous value.
theorem soutA_eq (hc0 : cond3_0 i) (hc1 : ¬cond3_1 i) :
    View.canon (kernelRun3_A c i arg1 harg1 arg2 harg2 arg3 harg3 arg4 harg4 arg5 harg5 arg6 harg6 arg7 harg7 arg8 harg8 arg9 harg9 arg10 harg10 arg11 harg11 x0 x1 x2 x3 x4 x5 x6 x7 x8 hc0 hc1).2.1 = k3_pay3 x0 x2 x1 x3 x4 x5 (k3_pay2 (F := F)) := by
  unfold kernelRun3_A
  dsimp only
  try sl_unfold_words
  rw [View.canon_cons_unit_zero hz3]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S2000x128) hz3, View.ld_unit_zero (S := S2000x1) hz3, View.ld_unit_zero (S := S1x128) hz3, View.ld_unit_zero (S := S64x1) hz3, View.ld_unit_zero (S := S128x10) hz3, View.ld_unit_zero (S := S1x10) hz3, View.ld_unit_zero (S := S64x10) hz3, View.ld_unit_zero (S := S64x128) hz3, View.readCov_unit_zero (S := S64x128) _ hz3]

theorem soutB_eq (hc0 : ¬cond3_0 i) (hc1 : ¬cond3_1 i) (xs0 : Vec F S64x128 .f32) :
    View.canon (kernelRun3_B c i arg1 harg1 arg2 harg2 arg3 harg3 arg4 harg4 arg5 harg5 arg6 harg6 arg7 harg7 arg8 harg8 arg9 harg9 arg10 harg10 arg11 harg11 x0 x1 x2 x3 x4 x5 x6 x7 x8 hc0 hc1 xs0).2.1 = k3_pay3 x0 x2 x1 x3 x4 x5 xs0 := by
  unfold kernelRun3_B
  dsimp only
  try sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S2000x128) hz3, View.ld_unit_zero (S := S2000x1) hz3, View.ld_unit_zero (S := S1x128) hz3, View.ld_unit_zero (S := S64x1) hz3, View.ld_unit_zero (S := S128x10) hz3, View.ld_unit_zero (S := S1x10) hz3, View.ld_unit_zero (S := S64x10) hz3, View.ld_unit_zero (S := S64x128) hz3, View.readCov_unit_zero (S := S64x128) _ hz3]

theorem soutC_eq (hc0 : ¬cond3_0 i) (hc1 : cond3_1 i) (xs0 : Vec F S64x128 .f32) :
    View.canon (kernelRun3_C c i arg1 harg1 arg2 harg2 arg3 harg3 arg4 harg4 arg5 harg5 arg6 harg6 arg7 harg7 arg8 harg8 arg9 harg9 arg10 harg10 arg11 harg11 x0 x1 x2 x3 x4 x5 x6 x7 x8 hc0 hc1 xs0).2.1 = k3_pay3 x0 x2 x1 x3 x4 x5 xs0 := by
  unfold kernelRun3_C
  dsimp only
  try sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S2000x128) hz3, View.ld_unit_zero (S := S2000x1) hz3, View.ld_unit_zero (S := S1x128) hz3, View.ld_unit_zero (S := S64x1) hz3, View.ld_unit_zero (S := S128x10) hz3, View.ld_unit_zero (S := S1x10) hz3, View.ld_unit_zero (S := S64x10) hz3, View.ld_unit_zero (S := S64x128) hz3, View.readCov_unit_zero (S := S64x128) _ hz3]

-- The output pieces' canonical contents in the last case: the head applied to that case's accumulator value.
theorem outC_eq (hc0 : ¬cond3_0 i) (hc1 : cond3_1 i) (xs0 : Vec F S64x128 .f32) :
    View.canon (kernelRun3_C c i arg1 harg1 arg2 harg2 arg3 harg3 arg4 harg4 arg5 harg5 arg6 harg6 arg7 harg7 arg8 harg8 arg9 harg9 arg10 harg10 arg11 harg11 x0 x1 x2 x3 x4 x5 x6 x7 x8 hc0 hc1 xs0).1 = k3_pay1 (k3_pay3 x0 x2 x1 x3 x4 x5 xs0) x6 x7 x8 := by
  unfold kernelRun3_C
  dsimp only
  try sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S2000x128) hz3, View.ld_unit_zero (S := S2000x1) hz3, View.ld_unit_zero (S := S1x128) hz3, View.ld_unit_zero (S := S64x1) hz3, View.ld_unit_zero (S := S128x10) hz3, View.ld_unit_zero (S := S1x10) hz3, View.ld_unit_zero (S := S64x10) hz3, View.ld_unit_zero (S := S64x128) hz3, View.readCov_unit_zero (S := S64x128) _ hz3]

end

variable (V : (c : Dev nD) → (b : Ref sig .tc) → Buf (Elt Ideal) ((c : Thread nD τ).loc b))

theorem zero3 : Cert.Spec.zero = 0 := by simp [Cert.Spec.zero, Ideal.ofBits, Ideal.ieee]

abbrev act3 (c : Dev nD) : Cert.Spec.SNH.Idx → EReal :=
  Cert.Spec.combV (V c main_v49) (V c main_v39_0) (V c main_v13) (V c main_v14) (V c main_v56)

abbrev G3 (c : Dev nD) : Cert.Spec.SGO.Idx → EReal :=
  Cert.Spec.headV (Cert.Spec.poolV (act3 V c) (V c main_v57)) (V c main_v58) (V c main_arg9) (V c main_v59)

def rowOf (n : ℕ) (hn : n < 25) (k : Fin 2000) : Fin 50000 := ⟨2000 * n + k.val, by have := k.isLt; omega⟩

def blockSum3 (c : Dev nD) (n : ℕ) (hn : n < 25) (g : Fin 64) (f : Fin 128) : EReal :=
  ∑ k : Fin 2000, (if V c main_v57 (ix2 (rowOf n hn k) (0 : Fin 1)) = BitVec.ofNat 32 g.val then (1 : EReal) else 0)
    * act3 V c (ix2 (rowOf n hn k) f)

theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0 :=
  (by decide +kernel : ∀ t : Fin grid3.N, _)

theorem iblk3_0_apply (c : Dev nD) (t : Fin cfg3.N) (k : Fin 2000) (f : Fin 128) :
    (iblk3 V c 0 t : Vec Ideal S2000x128 .f32) (ix2 k f) = V c main_v49 (ix2 (rowOf t.val (lt_of_lt_of_eq t.isLt N_3) k) f) := by
  obtain ⟨e0, e1, -, -, -, -, -, -, -, -, -, -, -, -, -, -, -, -, -, -⟩ := idx3 t
  show V c main_v49 (((cfg3.win 0).blk t).view.emb (ix2 k f)) = V c main_v49 _
  congr 1
  funext a; apply Fin.ext
  match a with
  | ⟨0, _⟩ => show win3_0.index t (0 : Fin 2) * 2000 + 1 * k.val = 2000 * t.val + k.val; omega
  | ⟨1, _⟩ => show win3_0.index t (1 : Fin 2) * 128 + 1 * f.val = f.val; omega

theorem iblk3_1_apply (c : Dev nD) (t : Fin cfg3.N) (k : Fin 2000) (f : Fin 128) :
    (iblk3 V c 1 t : Vec Ideal S2000x128 .f32) (ix2 k f) = V c main_v39_0 (ix2 (rowOf t.val (lt_of_lt_of_eq t.isLt N_3) k) f) := by
  obtain ⟨-, -, e0, e1, -, -, -, -, -, -, -, -, -, -, -, -, -, -, -, -⟩ := idx3 t
  show V c main_v39_0 (((cfg3.win 1).blk t).view.emb (ix2 k f)) = V c main_v39_0 _
  congr 1
  funext a; apply Fin.ext
  match a with
  | ⟨0, _⟩ => show win3_1.index t (0 : Fin 2) * 2000 + 1 * k.val = 2000 * t.val + k.val; omega
  | ⟨1, _⟩ => show win3_1.index t (1 : Fin 2) * 128 + 1 * f.val = f.val; omega

theorem iblk3_2_apply (c : Dev nD) (t : Fin cfg3.N) (k : Fin 2000) (f : Fin 1) :
    (iblk3 V c 2 t : Vec Ideal S2000x1 .f32) (ix2 k f) = V c main_v13 (ix2 (rowOf t.val (lt_of_lt_of_eq t.isLt N_3) k) f) := by
  obtain ⟨-, -, -, -, e0, e1, -, -, -, -, -, -, -, -, -, -, -, -, -, -⟩ := idx3 t
  show V c main_v13 (((cfg3.win 2).blk t).view.emb (ix2 k f)) = V c main_v13 _
  congr 1
  funext a; apply Fin.ext
  match a with
  | ⟨0, _⟩ => show win3_2.index t (0 : Fin 2) * 2000 + 1 * k.val = 2000 * t.val + k.val; omega
  | ⟨1, _⟩ => show win3_2.index t (1 : Fin 2) * 1 + 1 * f.val = f.val; omega

theorem iblk3_3_apply (c : Dev nD) (t : Fin cfg3.N) (k : Fin 2000) (f : Fin 1) :
    (iblk3 V c 3 t : Vec Ideal S2000x1 .f32) (ix2 k f) = V c main_v14 (ix2 (rowOf t.val (lt_of_lt_of_eq t.isLt N_3) k) f) := by
  obtain ⟨-, -, -, -, -, -, e0, e1, -, -, -, -, -, -, -, -, -, -, -, -⟩ := idx3 t
  show V c main_v14 (((cfg3.win 3).blk t).view.emb (ix2 k f)) = V c main_v14 _
  congr 1
  funext a; apply Fin.ext
  match a with
  | ⟨0, _⟩ => show win3_3.index t (0 : Fin 2) * 2000 + 1 * k.val = 2000 * t.val + k.val; omega
  | ⟨1, _⟩ => show win3_3.index t (1 : Fin 2) * 1 + 1 * f.val = f.val; omega

theorem iblk3_5_apply (c : Dev nD) (t : Fin cfg3.N) (k : Fin 2000) (f : Fin 1) :
    (iblk3 V c 5 t : Vec Ideal S2000x1 .i32) (ix2 k f) = V c main_v57 (ix2 (rowOf t.val (lt_of_lt_of_eq t.isLt N_3) k) f) := by
  obtain ⟨-, -, -, -, -, -, -, -, -, -, e0, e1, -, -, -, -, -, -, -, -⟩ := idx3 t
  show V c main_v57 (((cfg3.win 5).blk t).view.emb (ix2 k f)) = V c main_v57 _
  congr 1
  funext a; apply Fin.ext
  match a with
  | ⟨0, _⟩ => show win3_5.index t (0 : Fin 2) * 2000 + 1 * k.val = 2000 * t.val + k.val; omega
  | ⟨1, _⟩ => show win3_5.index t (1 : Fin 2) * 1 + 1 * f.val = f.val; omega

theorem iblk3_4_eq (c : Dev nD) (t : Fin cfg3.N) : (iblk3 V c 4 t : Vec Ideal S1x128 .f32) = V c main_v56 := by
  obtain ⟨-, -, -, -, -, -, -, -, e0, e1, -, -, -, -, -, -, -, -, -, -⟩ := idx3 t
  funext y
  show V c main_v56 (((cfg3.win 4).blk t).view.emb y) = V c main_v56 y
  congr 1
  funext a; apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

theorem iblk3_6_eq (c : Dev nD) (t : Fin cfg3.N) : (iblk3 V c 6 t : Vec Ideal S64x1 .f32) = V c main_v58 := by
  obtain ⟨-, -, -, -, -, -, -, -, -, -, -, -, e0, e1, -, -, -, -, -, -⟩ := idx3 t
  funext y
  show V c main_v58 (((cfg3.win 6).blk t).view.emb y) = V c main_v58 y
  congr 1
  funext a; apply Fin.ext
  match a with
  | ⟨0, _⟩ => show win3_6.index t (0 : Fin 2) * 64 + 1 * (y 0).val = (y 0).val; omega
  | ⟨1, _⟩ => show win3_6.index t (1 : Fin 2) * 1 + 1 * (y 1).val = (y 1).val; omega

theorem iblk3_7_eq (c : Dev nD) (t : Fin cfg3.N) : (iblk3 V c 7 t : Vec Ideal S128x10 .f32) = V c main_arg9 := by
  obtain ⟨-, -, -, -, -, -, -, -, -, -, -, -, -, -, e0, e1, -, -, -, -⟩ := idx3 t
  funext y
  show V c main_arg9 (((cfg3.win 7).blk t).view.emb y) = V c main_arg9 y
  congr 1
  funext a; apply Fin.ext
  match a with
  | ⟨0, _⟩ => show win3_7.index t (0 : Fin 2) * 128 + 1 * (y 0).val = (y 0).val; omega
  | ⟨1, _⟩ => show win3_7.index t (1 : Fin 2) * 10 + 1 * (y 1).val = (y 1).val; omega

theorem iblk3_8_eq (c : Dev nD) (t : Fin cfg3.N) : (iblk3 V c 8 t : Vec Ideal S1x10 .f32) = V c main_v59 := by
  obtain ⟨-, -, -, -, -, -, -, -, -, -, -, -, -, -, -, -, e0, e1, -, -⟩ := idx3 t
  funext y
  show V c main_v59 (((cfg3.win 8).blk t).view.emb y) = V c main_v59 y
  congr 1
  funext a; apply Fin.ext
  match a with
  | ⟨0, _⟩ => show win3_8.index t (0 : Fin 2) * 1 + 1 * (y 0).val = (y 0).val; omega
  | ⟨1, _⟩ => show win3_8.index t (1 : Fin 2) * 10 + 1 * (y 1).val = (y 1).val; omega

theorem pay3_blocks (c : Dev nD) (t : Fin cfg3.N) (acc : Vec Ideal S64x128 .f32) (g : Fin 64) (f : Fin 128) :
    k3_pay3 (F := Ideal) (iblk3 V c 0 t) (iblk3 V c 2 t) (iblk3 V c 1 t) (iblk3 V c 3 t) (iblk3 V c 4 t) (iblk3 V c 5 t) acc (ix2 g f)
      = acc (ix2 g f) + blockSum3 V c t.val (lt_of_lt_of_eq t.isLt N_3) g f := by
  rw [k3_pay3_apply]
  refine congrArg (acc (ix2 g f) + ·) ?_
  unfold blockSum3
  refine Finset.sum_congr rfl fun k _ => ?_
  rw [iblk3_0_apply, iblk3_1_apply, iblk3_2_apply, iblk3_3_apply, iblk3_5_apply, iblk3_4_eq]
  rfl

theorem sAt3_zero (c : Dev nD) (hn : 0 < cfg3.N) :
    (outsAt3 V c 0 hn).2 = k3_pay3 (F := Ideal) (iblk3 V c 0 ⟨0, hn⟩) (iblk3 V c 2 ⟨0, hn⟩) (iblk3 V c 1 ⟨0, hn⟩) (iblk3 V c 3 ⟨0, hn⟩) (iblk3 V c 4 ⟨0, hn⟩) (iblk3 V c 5 ⟨0, hn⟩) (k3_pay2 (F := Ideal)) := by
  rw [outsAt3_A V c ⟨0, hn⟩ rfl]
  unfold runA
  dsimp only
  exact soutA_eq (F := Ideal) ..

theorem sAt3_succ (c : Dev nD) (n : ℕ) (hn : n + 1 < cfg3.N) :
    (outsAt3 V c (n + 1) hn).2 = k3_pay3 (F := Ideal) (iblk3 V c 0 ⟨n + 1, hn⟩) (iblk3 V c 2 ⟨n + 1, hn⟩) (iblk3 V c 1 ⟨n + 1, hn⟩) (iblk3 V c 3 ⟨n + 1, hn⟩) (iblk3 V c 4 ⟨n + 1, hn⟩) (iblk3 V c 5 ⟨n + 1, hn⟩) (outsAt3 V c n (Nat.lt_of_succ_lt hn)).2 := by
  by_cases h1 : n + 1 = 24
  · rw [outsAt3_C V c ⟨n + 1, hn⟩ h1]
    unfold runC
    dsimp only
    exact soutC_eq (F := Ideal) ..
  · rw [outsAt3_B V c ⟨n + 1, hn⟩ (Nat.succ_ne_zero n) h1]
    unfold runB
    dsimp only
    exact soutB_eq (F := Ideal) ..

theorem oAt3_last (c : Dev nD) (t : Fin cfg3.N) (h24 : t.val = 24) :
    (outsAt3 V c t.val t.isLt).1 = k3_pay1 (F := Ideal) (outsAt3 V c t.val t.isLt).2 (iblk3 V c 6 t) (iblk3 V c 7 t) (iblk3 V c 8 t) := by
  rw [outsAt3_C V c t h24]
  unfold runC
  dsimp only
  rw [outC_eq, soutC_eq]

theorem acc3_eq (c : Dev nD) : ∀ (n : ℕ) (hn : n < cfg3.N) (g : Fin 64) (f : Fin 128),
    (outsAt3 V c n hn).2 (ix2 g f) = ∑ t' : Fin 25, if t'.val ≤ n then blockSum3 V c t'.val t'.isLt g f else 0 := by
  intro n
  induction n with
  | zero =>
    intro hn g f
    rw [sAt3_zero, pay3_blocks, k3_pay2_apply, zero3, zero_add]
    rw [Finset.sum_eq_single (⟨0, by decide⟩ : Fin 25)]
    · rw [if_pos (le_refl _)]
    · intro b _ hb
      rw [if_neg]
      intro h
      exact hb (Fin.ext (Nat.le_zero.mp h))
    · intro h; exact absurd (Finset.mem_univ _) h
  | succ n ih =>
    intro hn g f
    have hN : n + 1 < 25 := lt_of_lt_of_eq hn N_3
    rw [sAt3_succ, pay3_blocks, ih (Nat.lt_of_succ_lt hn) g f]
    have hsplit : ∀ t' : Fin 25, (if t'.val ≤ n + 1 then blockSum3 V c t'.val t'.isLt g f else 0)
        = (if t'.val ≤ n then blockSum3 V c t'.val t'.isLt g f else 0) + (if t' = (⟨n + 1, hN⟩ : Fin 25) then blockSum3 V c t'.val t'.isLt g f else 0) := by
      intro t'
      by_cases h1 : t'.val ≤ n
      · rw [if_pos h1, if_pos (Nat.le_succ_of_le h1), if_neg (fun h => by have := congrArg Fin.val h; dsimp only at this; omega), add_zero]
      · by_cases h2 : t' = (⟨n + 1, hN⟩ : Fin 25)
        · rw [if_neg h1, if_pos h2, if_pos (by rw [h2]), zero_add]
        · rw [if_neg h1, if_neg h2, if_neg (fun h => h2 (Fin.ext (by dsimp only; omega))), add_zero]
    rw [Finset.sum_congr rfl (fun t' _ => hsplit t'), Finset.sum_add_distrib, Finset.sum_ite_eq' Finset.univ (⟨n + 1, hN⟩ : Fin 25), if_pos (Finset.mem_univ _)]

theorem acc3_last (c : Dev nD) (t : Fin cfg3.N) (ht : t.val = 24) (g : Fin 64) (f : Fin 128) :
    (outsAt3 V c t.val t.isLt).2 (ix2 g f) = Cert.Spec.poolV (act3 V c) (V c main_v57) (ix2 g f) := by
  rw [acc3_eq V c t.val t.isLt g f]
  have hall : ∀ t' : Fin 25, (if t'.val ≤ t.val then blockSum3 V c t'.val t'.isLt g f else 0) = blockSum3 V c t'.val t'.isLt g f :=
    fun t' => if_pos (by have := t'.isLt; omega)
  rw [Finset.sum_congr rfl (fun t' _ => hall t')]
  exact sum_blocks (fun r => (if V c main_v57 (ix2 r (0 : Fin 1)) = BitVec.ofNat 32 g.val then (1 : EReal) else 0) * act3 V c (ix2 r f))

theorem mem_blk3_9 (t : Fin cfg3.N) (i : S64x10.Idx) :
    i ∈ ((cfg3.win 9).blk t).view.set ↔ ∀ a : Fin 2, win3_9.index t a * S64x10.size a ≤ (i a).val ∧ (i a).val < win3_9.index t a * S64x10.size a + S64x10.size a := by
  show i ∈ ((View.whole main_v60).slice (win3_9.rect t)).set ↔ _
  rw [View.set_slice_whole, Rect.mem_set_unit]
  exact Iff.rfl

theorem flushed3_9_eq (c : Dev nD) (t : Fin cfg3.N) (hf : (cfg3.win 9).flush t = true) :
    (dat3 V c).flushed 9 t = ((cfg3.win 9).blk t).view.read (Elt Ideal) (G3 V c) := by
  have h24 : t.val % 25 = 24 := (flush3_9 t).mp hf
  have hN : t.val < 25 := lt_of_lt_of_eq t.isLt N_3
  have ht : t.val = 24 := by omega
  obtain ⟨-, -, -, -, -, -, -, -, -, -, -, -, -, -, -, -, -, -, e0, e1⟩ := idx3 t
  show (cfg3.win 9).cut (grid3.coords t) ((dat3 V c).after 9 t) = _
  rw [after3_9, oAt3_last V c t ht]
  refine funext fun (j : S64x10.Idx) => ?_
  have hemb : ((cfg3.win 9).blk t).view.emb j = j := by
    funext a; apply Fin.ext
    match a with
    | ⟨0, _⟩ => show win3_9.index t (0 : Fin 2) * 64 + 1 * (j 0).val = (j 0).val; omega
    | ⟨1, _⟩ => show win3_9.index t (1 : Fin 2) * 10 + 1 * (j 1).val = (j 1).val; omega
  show k3_pay1 (F := Ideal) _ _ _ _ j = G3 V c (((cfg3.win 9).blk t).view.emb j)
  rw [hemb]
  obtain ⟨g, o, rfl⟩ : ∃ (g : Fin 64) (o : Fin 10), j = ix2 g o := ⟨j 0, j 1, eq_ix2 j⟩
  rw [k3_pay1_apply, iblk3_6_eq, iblk3_7_eq, iblk3_8_eq]
  show _ = (∑ k : Fin 128, Ideal.div (Cert.Spec.poolV (act3 V c) (V c main_v57) (ix2 g k)) (V c main_v58 (ix2 g (0 : Fin 1))) * V c main_arg9 (ix2 k o)) + V c main_v59 (ix2 (0 : Fin 1) o)
  refine congrArg (· + V c main_v59 (ix2 (0 : Fin 1) o)) ?_
  refine Finset.sum_congr rfl fun k _ => ?_
  rw [acc3_last V c t ht g k]

theorem mem_last3_9 (t : Fin cfg3.N) (i : S64x10.Idx) : i ∈ ((cfg3.win 9).blk t).view.set := by
  obtain ⟨-, -, -, -, -, -, -, -, -, -, -, -, -, -, -, -, -, -, e0, e1⟩ := idx3 t
  rw [mem_blk3_9]
  intro a
  match a with
  | ⟨0, _⟩ => show win3_9.index t (0 : Fin 2) * 64 ≤ (i 0).val ∧ (i 0).val < win3_9.index t (0 : Fin 2) * 64 + 64; have hi : (i 0).val < 64 := (i 0).isLt; omega
  | ⟨1, _⟩ => show win3_9.index t (1 : Fin 2) * 10 ≤ (i 1).val ∧ (i 1).val < win3_9.index t (1 : Fin 2) * 10 + 10; have hi : (i 1).val < 10 := (i 1).isLt; omega

theorem cover3_9 (i : S64x10.Idx) : ∃ t : Fin cfg3.N, (cfg3.win 9).flush t = true ∧ i ∈ ((cfg3.win 9).blk t).view.set :=
  ⟨⟨24, by rw [show cfg3.N = 25 from N_3]; decide⟩, (flush3_9 _).mpr (by show (24 : ℕ) % 25 = 24; decide), mem_last3_9 _ i⟩

theorem final3_9 (c : Dev nD) :
    (dat3 V c).arrAt 9 cfg3.N = Cert.Spec.headV (Cert.Spec.poolV (Cert.Spec.combV (V c main_v49) (V c main_v39_0) (V c main_v13) (V c main_v14) (V c main_v56)) (V c main_v57)) (V c main_v58) (V c main_arg9) (V c main_v59) :=
  (dat3 V c).arrAt_eq_of_cover 9 (G3 V c) (fun t hf => flushed3_9_eq V c t hf) cover3_9

end Cert.KernelIdeal.HandV
end
-- ==== Proof.HostIdx.lean ====
import Idealize.ShloMosaic.Lib.ValueIdx
import Idealize.ShloMosaic.Lib.StableHlo.Predicate

noncomputable section

open scoped BigOperators

namespace Cert.HostIdx

open Idealize.ShloMosaic Idealize.ShloMosaic.ValueIdx

-- The signed test against zero, the sum with k and the choice between them: the wrap of a negative index word by k.
theorem select_wrap (w k : BitVec 32) :
    Scalar.select (IntOp.cmpi .slt w 0#32) (IntOp.addi w k) w = if w.toInt < 0 then w + k else w := by
  unfold Scalar.select IntOp.cmpi IntOp.addi
  by_cases h : w.toInt < 0
  · have hs : w.slt 0#32 = true := by simp [BitVec.slt, h]
    rw [hs, if_pos h]; rfl
  · have hs : w.slt 0#32 = false := by simp [BitVec.slt, h]
    rw [hs, if_neg h]; rfl

theorem gather_rows_pos {N E H : Nat} (d : GatherDims ⟨2, ![N, H]⟩ ⟨2, ![E, 1]⟩ ⟨2, ![E, H]⟩)
    (hcoll : d.collapsedSliceDims = [0]) : 0 < N := by
  have h1 : d.sliceSizes 0 = 1 := d.slice_collapsed 0 (by rw [hcoll]; exact List.mem_singleton.mpr rfl)
  have h2 : d.sliceSizes 0 ≤ N := d.slice_le 0
  omega

theorem gather_vec_pos {N E : Nat} (d : GatherDims ⟨1, ![N]⟩ ⟨2, ![E, 1]⟩ ⟨1, ![E]⟩)
    (hcoll : d.collapsedSliceDims = [0]) : 0 < N := by
  have h1 : d.sliceSizes 0 = 1 := d.slice_collapsed 0 (by rw [hcoll]; exact List.mem_singleton.mpr rfl)
  have h2 : d.sliceSizes 0 ≤ N := d.slice_le 0
  omega

theorem gather_rows {α : Type} {N E H w : Nat} (d : GatherDims ⟨2, ![N, H]⟩ ⟨2, ![E, 1]⟩ ⟨2, ![E, H]⟩)
    (hoff : d.offsetDims = [1]) (hcoll : d.collapsedSliceDims = [0]) (hob : d.operandBatchingDims = [])
    (hsim : d.startIndexMap = [0]) (hivd : d.indexVectorDim = 1)
    (x : (⟨2, ![N, H]⟩ : Shape).Idx → α) (idx : IVec ⟨2, ![E, 1]⟩ w) (e : Fin E) (f : Fin H) :
    Host.gather d x idx (ix2 e f)
      = x (ix2 ⟨min (idx (ix2 e (0 : Fin 1))).toInt.toNat (N - 1),
          by have := gather_rows_pos d hcoll; omega⟩ f) := by
  obtain ⟨od, cd, ob, sb, sm, iv, ss, wf⟩ := d
  dsimp only at hoff hcoll hob hsim hivd
  subst hoff hcoll hob hsim hivd
  have hsl : ss 0 = 1 :=
    GatherDims.slice_collapsed ⟨[1], [0], [], sb, [0], 1, ss, wf⟩ 0 (List.mem_singleton.mpr rfl)
  unfold Host.gather
  congr 1
  funext a
  refine Fin.ext ?_
  match a with
  | ⟨0, _⟩ =>
    show GatherDims.start _ (ix2 e f) idx 0 + GatherDims.batchCoord _ (ix2 e f) 0
        + GatherDims.offCoord _ (ix2 e f) 0 = min _ (N - 1)
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    refine Fin.ext ?_
    match b with
    | ⟨0, _⟩ => rfl
    | ⟨1, _⟩ => rfl
  | ⟨1, _⟩ =>
    show GatherDims.start _ (ix2 e f) idx 1 + GatherDims.batchCoord _ (ix2 e f) 1
        + GatherDims.offCoord _ (ix2 e f) 1 = f.val
    rw [GatherDims.batchCoord_eq_zero _ _ _ List.not_mem_nil]
    have hst : GatherDims.start ⟨[1], [0], [], sb, [0], 1, ss, wf⟩ (ix2 e f) idx 1 = 0 := by
      unfold GatherDims.start
      rw [dif_neg (by simp)]
    have hk : (1 : Fin 2) ∈ GatherDims.sKept (s := ⟨2, ![N, H]⟩) ⟨[1], [0], [], sb, [0], 1, ss, wf⟩ :=
      (GatherDims.mem_sKept _ _).mpr ⟨by simp, List.not_mem_nil⟩
    have hoc : GatherDims.offCoord ⟨[1], [0], [], sb, [0], 1, ss, wf⟩ (ix2 e f) 1 = f.val := by
      unfold GatherDims.offCoord
      rw [dif_pos hk]
      rfl
    rw [hst, hoc]
    simp

-- The library's read of a rank-one take, restated at this file's index forms.
theorem gather_vec {α : Type} {N E w : Nat} (d : GatherDims ⟨1, ![N]⟩ ⟨2, ![E, 1]⟩ ⟨1, ![E]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) :
    Host.gather d x idx (ix1 e)
      = x (ix1 ⟨min (idx (ix2 e (0 : Fin 1))).toInt.toNat (N - 1),
          by have := gather_vec_pos d hcoll; omega⟩) := by
  have hp : StableHlo.Predicate.ixP e = ix2 e (0 : Fin 1) := funext fun a => match a with | ⟨0, _⟩ => rfl | ⟨1, _⟩ => rfl
  have h := StableHlo.Predicate.gather_take d hcoll hob hsim hivd x idx e (gather_vec_pos d hcoll)
  rw [show Shape.Idx.ofFin e = ix1 e from (Shape.Idx.eq_ofFin _).symm] at h
  exact h.trans (congrArg x ((Shape.Idx.eq_ofFin _).symm.trans
    (congrArg ix1 (Fin.ext (congrArg (fun j => min (idx j).toInt.toNat (N - 1)) hp)))))

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hc
      have h' := congrArg Fin.val (congrFun (Option.some.inj h) a)
      simp only at h'
      have := hc a
      omega
    · exact absurd h (by simp)
  · intro h
    have hc : ∀ a, 0 ≤ d.start j idx a + (d.window j a : Int) ∧ d.start j idx a + (d.window j a : Int) < s.size a := by
      intro a
      have := h a
      have := (i a).isLt
      omega
    rw [dif_pos hc]
    congr 1
    funext a
    refine Fin.ext ?_
    have := h a
    simp only
    omega

theorem scatterAdd_rows {N E H w : Nat} (d : ScatterDims ⟨2, ![N, H]⟩ ⟨2, ![E, 1]⟩ ⟨2, ![E, H]⟩)
    (huw : d.updateWindowDims = [1]) (hiw : d.insertedWindowDims = [0])
    (hsd : d.scatterDimsToOperandDims = [0]) (hivd : d.indexVectorDim = 1)
    (x : (⟨2, ![N, H]⟩ : Shape).Idx → EReal) (idx : IVec ⟨2, ![E, 1]⟩ w)
    (u : (⟨2, ![E, H]⟩ : Shape).Idx → EReal) (n : Fin N) (f : Fin H) :
    Host.scatterAdd (F := Ideal) (φ := .f32) d x idx u (ix2 n f)
      = x (ix2 n f) + ∑ e ∈ Finset.univ.filter
          (fun e : Fin E => (idx (ix2 e (0 : Fin 1))).toInt = (n.val : Int)), u (ix2 e f) := by
  obtain ⟨uw, iw, sd, iv, wf⟩ := d
  dsimp only at huw hiw hsd hivd
  subst huw hiw hsd hivd
  have hst0 : ∀ j : (⟨2, ![E, H]⟩ : Shape).Idx,
      ScatterDims.start ⟨[1], [0], [0], 1, wf⟩ j idx 0 = (idx (ix2 (j 0) (0 : Fin 1))).toInt := by
    intro j
    unfold ScatterDims.start
    rw [dif_pos (List.mem_singleton.mpr rfl)]
    congr 2
    funext b
    refine Fin.ext ?_
    match b with
    | ⟨0, _⟩ => rfl
    | ⟨1, _⟩ => rfl
  have hst1 : ∀ j : (⟨2, ![E, H]⟩ : Shape).Idx, ScatterDims.start ⟨[1], [0], [0], 1, wf⟩ j idx 1 = 0 := by
    intro j
    unfold ScatterDims.start
    rw [dif_neg (by simp)]
  have hw0 : ∀ j : (⟨2, ![E, H]⟩ : Shape).Idx,
      ScatterDims.window (s := ⟨2, ![N, H]⟩) (si := ⟨2, ![E, 1]⟩) ⟨[1], [0], [0], 1, wf⟩ j 0 = 0 := by
    intro j
    unfold ScatterDims.window
    rw [dif_neg (by simp [ScatterDims.sKept, Shape.kept])]
  have hw1 : ∀ j : (⟨2, ![E, H]⟩ : Shape).Idx,
      ScatterDims.window (s := ⟨2, ![N, H]⟩) (si := ⟨2, ![E, 1]⟩) ⟨[1], [0], [0], 1, wf⟩ j 1 = (j 1).val := by
    intro j
    unfold ScatterDims.window
    rw [dif_pos (by simp [ScatterDims.sKept, Shape.kept])]
    rfl
  have key : ∀ j : (⟨2, ![E, H]⟩ : Shape).Idx,
      ScatterDims.resultIdx? ⟨[1], [0], [0], 1, wf⟩ j idx = some (ix2 n f)
        ↔ j 1 = f ∧ (idx (ix2 (j 0) (0 : Fin 1))).toInt = (n.val : Int) := by
    intro j
    rw [resultIdx?_eq_some_iff]
    constructor
    · intro h
      have h0 := h 0
      have h1 := h 1
      rw [hst0, hw0] at h0
      rw [hst1, hw1] at h1
      refine ⟨Fin.ext ?_, ?_⟩
      · have : (((ix2 n f : (⟨2, ![N, H]⟩ : Shape).Idx) 1).val : Int) = (f.val : Int) := rfl
        omega
      · have : (((ix2 n f : (⟨2, ![N, H]⟩ : Shape).Idx) 0).val : Int) = (n.val : Int) := rfl
        omega
    · rintro ⟨h1, h0⟩ a
      match a with
      | ⟨0, _⟩ =>
        show ScatterDims.start _ j idx 0 + (ScatterDims.window _ j 0 : Int) = (n.val : Int)
        rw [hst0, hw0, h0]; simp
      | ⟨1, _⟩ =>
        show ScatterDims.start _ j idx 1 + (ScatterDims.window _ j 1 : Int) = (f.val : Int)
        rw [hst1, hw1, h1]; simp
  show Ideal.hostScatterAdd _ x idx u _ = _
  unfold Ideal.hostScatterAdd
  congr 1
  refine Finset.sum_nbij' (fun j => j 0) (fun e => ix2 e f) ?_ ?_ ?_ ?_ ?_
  · intro j hj
    exact Finset.mem_filter.mpr ⟨Finset.mem_univ _, ((key j).mp (Finset.mem_filter.mp hj).2).2⟩
  · intro e he
    exact Finset.mem_filter.mpr ⟨Finset.mem_univ _, (key (ix2 e f)).mpr ⟨rfl, (Finset.mem_filter.mp he).2⟩⟩
  · intro j hj
    have h1 := ((key j).mp (Finset.mem_filter.mp hj).2).1
    rw [← h1]
    exact (eq_ix2 j).symm
  · intro e _
    rfl
  · intro j hj
    have h1 := ((key j).mp (Finset.mem_filter.mp hj).2).1
    rw [← h1]
    exact congrArg u (eq_ix2 j)

theorem scatterAdd_vec {N E w : Nat} (d : ScatterDims ⟨1, ![N]⟩ ⟨2, ![E, 1]⟩ ⟨1, ![E]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![E, 1]⟩ w)
    (u : (⟨1, ![E]⟩ : Shape).Idx → EReal) (n : Fin N) :
    Host.scatterAdd (F := Ideal) (φ := .f32) d x idx u (ix1 n)
      = x (ix1 n) + ∑ e ∈ Finset.univ.filter
          (fun e : Fin E => (idx (ix2 e (0 : Fin 1))).toInt = (n.val : Int)), u (ix1 e) := by
  obtain ⟨uw, iw, sd, iv, wf⟩ := d
  dsimp only at huw hiw hsd hivd
  subst huw hiw hsd hivd
  have hst0 : ∀ j : (⟨1, ![E]⟩ : Shape).Idx,
      ScatterDims.start ⟨[], [0], [0], 1, wf⟩ j idx 0 = (idx (ix2 (j 0) (0 : Fin 1))).toInt := by
    intro j
    unfold ScatterDims.start
    rw [dif_pos (List.mem_singleton.mpr rfl)]
    congr 2
    funext b
    refine Fin.ext ?_
    match b with
    | ⟨0, _⟩ => rfl
    | ⟨1, _⟩ => rfl
  have hw0 : ∀ j : (⟨1, ![E]⟩ : Shape).Idx,
      ScatterDims.window (s := ⟨1, ![N]⟩) (si := ⟨2, ![E, 1]⟩) ⟨[], [0], [0], 1, wf⟩ j 0 = 0 := by
    intro j
    unfold ScatterDims.window
    rw [dif_neg (by simp [ScatterDims.sKept, Shape.kept])]
  have key : ∀ j : (⟨1, ![E]⟩ : Shape).Idx,
      ScatterDims.resultIdx? ⟨[], [0], [0], 1, wf⟩ j idx = some (ix1 n)
        ↔ (idx (ix2 (j 0) (0 : Fin 1))).toInt = (n.val : Int) := by
    intro j
    rw [resultIdx?_eq_some_iff]
    constructor
    · intro h
      have h0 := h 0
      rw [hst0, hw0] at h0
      have : (((ix1 n : (⟨1, ![N]⟩ : Shape).Idx) 0).val : Int) = (n.val : Int) := rfl
      omega
    · intro h0 a
      match a with
      | ⟨0, _⟩ =>
        show ScatterDims.start _ j idx 0 + (ScatterDims.window _ j 0 : Int) = (n.val : Int)
        rw [hst0, hw0, h0]; simp
  show Ideal.hostScatterAdd _ x idx u _ = _
  unfold Ideal.hostScatterAdd
  congr 1
  refine Finset.sum_nbij' (fun j => j 0) (fun e => ix1 e) ?_ ?_ ?_ ?_ ?_
  · intro j hj
    exact Finset.mem_filter.mpr ⟨Finset.mem_univ _, (key j).mp (Finset.mem_filter.mp hj).2⟩
  · intro e he
    exact Finset.mem_filter.mpr ⟨Finset.mem_univ _, (key (ix1 e)).mpr (Finset.mem_filter.mp he).2⟩
  · intro j _
    exact (eq_ix1 j).symm
  · intro e _
    rfl
  · intro j _
    exact congrArg u (eq_ix1 j)

end Cert.HostIdx

end
-- ==== Proof.KI.HostValLay.lean ====
import proofs.«409879_j3573412790605_2_alg».proof.Proof.Gen.KernelIdeal.Launch
import proofs.«409879_j3573412790605_2_alg».proof.Proof.Gen.KernelIdeal.Regions
import proofs.«409879_j3573412790605_2_alg».proof.Proof.SpecCols
import Idealize.ShloMosaic.Lib.StableHlo.Run
import Idealize.ShloMosaic.Lib.Pipeline.Value
import Idealize.ShloMosaic.Lib.ValueIdx

set_option maxRecDepth 16384

noncomputable section

namespace Cert.KernelIdeal.HostVal

open Cert.KernelIdeal Cert.KernelIdeal.Gen
open Idealize.ShloMosaic Idealize.ShloMosaic.TcCoe Idealize.ShloMosaic.ValueIdx

variable (W : Valuation τ sig (Elt Ideal))

-- A reshape keeps the row-major position, so a vector as a one-column array reads the vector.
theorem col_cast {α : Type} {n : Nat} (h : (⟨1, ![n]⟩ : Shape).ShapeCasts ⟨2, ![n, 1]⟩)
    (v : (⟨1, ![n]⟩ : Shape).Idx → α) (i : (⟨2, ![n, 1]⟩ : Shape).Idx) :
    shapeCast ⟨2, ![n, 1]⟩ v h i = v (ix1 (i 0)) :=
  shapeCast_apply v h i (ix1 (i 0)) (by
    rw [Shape.rowMajor_val_one, Shape.rowMajor_val_two]
    have h1 : (i 1).val < 1 := (i 1).isLt
    show (i 0).val = (i 0).val * 1 + (i 1).val
    omega)

theorem row_cast {α : Type} {n : Nat} (h : (⟨1, ![n]⟩ : Shape).ShapeCasts ⟨2, ![1, n]⟩)
    (v : (⟨1, ![n]⟩ : Shape).Idx → α) (i : (⟨2, ![1, n]⟩ : Shape).Idx) :
    shapeCast ⟨2, ![1, n]⟩ v h i = v (ix1 (i 1)) :=
  shapeCast_apply v h i (ix1 (i 1)) (by
    rw [Shape.rowMajor_val_one, Shape.rowMajor_val_two]
    have h0 : (i 0).val = 0 := Nat.lt_one_iff.mp (i 0).isLt
    show (i 1).val = (i 0).val * n + (i 1).val
    rw [h0, Nat.zero_mul, Nat.zero_add])

theorem bcast_col_apply {α : Type} {n : Nat} (h : (⟨1, ![n]⟩ : Shape).BroadcastsInDim ⟨2, ![n, 1]⟩ ![0])
    (v : (⟨1, ![n]⟩ : Shape).Idx → α) (e : Fin n) (z : Fin 1) :
    broadcastInDim ⟨2, ![n, 1]⟩ ![0] h v (ix2 e z) = v (ix1 e) := by
  refine broadcastInDim_apply ![0] h v (ix2 e z) (ix1 e) (fun a => ?_)
  match a with
  | ⟨0, _⟩ =>
    show e.val = if n = 1 then 0 else e.val
    split
    · have := e.isLt; omega
    · rfl

-- Row o of the edge list, sliced off and flattened, reads the list's row o.
theorem row_flat (ei : S2x600000.Idx → BitVec 32) (o : Nat) (ho : o < 2) (hs : S2x600000.Slices ![o, 0] S1x600000)
    (i : S600000.Idx) :
    shapeCast S600000 (extractStridedSlice S1x600000 ![o, 0] ei hs) shapeCasts_S1x600000_S600000 i
      = ei (ix2 (⟨o, ho⟩ : Fin 2) (i 0)) := by
  rw [shapeCast_apply _ shapeCasts_S1x600000_S600000 i (ix2 (0 : Fin 1) (i 0) : S1x600000.Idx)
        (by rw [Shape.rowMajor_val_two, Shape.rowMajor_val_one]; show 0 * 600000 + (i 0).val = (i 0).val; omega),
      extractStridedSlice_apply ![o, 0] _ hs (ix2 (0 : Fin 1) (i 0) : S1x600000.Idx)
        (ix2 (⟨o, ho⟩ : Fin 2) (i 0) : S2x600000.Idx)
        (fun a => match a with
          | ⟨0, _⟩ => rfl
          | ⟨1, _⟩ => by show (i 0).val = 0 + (i 0).val; omega)]

theorem h0_v1 : (StableHlo.after hostOps0 W (Proc.devRef .tc main_v1) : S600000.Idx → BitVec 32)
    = Spec.srcV (W (Proc.devRef .tc main_arg1)) := by
  after_results
  exact funext fun i => row_flat _ 0 (by decide) slices_S2x600000_S1x600000_0_0 i

theorem h0_v3 : (StableHlo.after hostOps0 W (Proc.devRef .tc main_v3) : S600000.Idx → BitVec 32)
    = Spec.dstV (W (Proc.devRef .tc main_arg1)) := by
  after_results
  exact funext fun i => row_flat _ 1 (by decide) slices_S2x600000_S1x600000_1_0 i

theorem h1_v26 : (StableHlo.after hostOps1 W (Proc.devRef .tc main_v26) : S1x128.Idx → EReal)
    = Spec.biasRow (W (Proc.devRef .tc main_arg4)) := by
  after_results
  exact funext fun i => row_cast shapeCasts_S128_S1x128 _ i

theorem h2_v38 : (StableHlo.after hostOps2 W (Proc.devRef .tc main_v38) : S1x128.Idx → EReal)
    = Spec.biasRow (W (Proc.devRef .tc main_arg6)) := by
  after_results
  exact funext fun i => row_cast shapeCasts_S128_S1x128 _ i

theorem h3_v56 : (StableHlo.after hostOps3 W (Proc.devRef .tc main_v56) : S1x128.Idx → EReal)
    = Spec.biasRow (W (Proc.devRef .tc main_arg8)) := by
  after_results
  exact funext fun i => row_cast shapeCasts_S128_S1x128 _ i

theorem h3_v57 : (StableHlo.after hostOps3 W (Proc.devRef .tc main_v57) : S50000x1.Idx → BitVec 32)
    = Spec.batchCol (W (Proc.devRef .tc main_arg2)) := by
  after_results
  exact funext fun i => col_cast shapeCasts_S50000_S50000x1 _ i

theorem h3_v59 : (StableHlo.after hostOps3 W (Proc.devRef .tc main_v59) : S1x10.Idx → EReal)
    = Spec.biasRowO (W (Proc.devRef .tc main_arg10)) := by
  after_results
  exact funext fun i => row_cast shapeCasts_S10_S1x10 _ i

end Cert.KernelIdeal.HostVal

end
-- ==== Proof.KI.HostVal.lean ====
import proofs.«409879_j3573412790605_2_alg».proof.Proof.Gen.KernelIdeal.Launch
import proofs.«409879_j3573412790605_2_alg».proof.Proof.Gen.KernelIdeal.Regions
import proofs.«409879_j3573412790605_2_alg».proof.Proof.HostIdx
import proofs.«409879_j3573412790605_2_alg».proof.Proof.KI.HostValLay
import proofs.«409879_j3573412790605_2_alg».proof.Proof.SpecCols
import Idealize.ShloMosaic.Lib.StableHlo.Run
import Idealize.ShloMosaic.Lib.Pipeline.Value
import Idealize.ShloMosaic.Lib.IdealHost
import Idealize.ShloMosaic.Lib.ValueIdx

set_option maxRecDepth 16384

noncomputable section

namespace Cert.KernelIdeal.HostVal

open Cert.KernelIdeal Cert.KernelIdeal.Gen
open Idealize.ShloMosaic Idealize.ShloMosaic.TcCoe Idealize.ShloMosaic.ValueIdx

variable (W : Valuation τ sig (Elt Ideal))

theorem wrapped_apply (srcv : S600000.Idx → BitVec 32) (e : Fin 600000) (z : Fin 1) :
    broadcastInDim S600000x1 ![0] bcast_S600000_S600000x1_0
      (select (cmpi .slt srcv (broadcastInDim S600000 ![] bcast_S_S600000 (constantI S_ 32 0#32)))
        (addi srcv (broadcastInDim S600000 ![] bcast_S_S600000 (constantI S_ 32 50000#32))) srcv) (ix2 e z)
      = Spec.wrap (srcv (ix1 e)) := by
  rw [bcast_col_apply]
  show Scalar.select (IntOp.cmpi .slt (srcv (ix1 e)) (broadcastInDim S600000 ![] bcast_S_S600000 (constantI S_ 32 0#32) (ix1 e)))
    (IntOp.addi (srcv (ix1 e)) (broadcastInDim S600000 ![] bcast_S_S600000 (constantI S_ 32 50000#32) (ix1 e))) (srcv (ix1 e)) = _
  rw [broadcastInDim_scalar_apply, broadcastInDim_scalar_apply]
  exact Cert.HostIdx.select_wrap _ _

theorem chain_eq (srcv dstv : S600000.Idx → BitVec 32) (tbl : S50000x128.Idx → EReal) :
    Host.scatterAdd (F := Ideal) scatter_S50000x128_S600000x1_S600000x128_1_0_0_1
      (broadcastInDim S50000x128 ![] bcast_S_S50000x128 (constant S_ .f32 0x00000000#32))
      (broadcastInDim S600000x1 ![0] bcast_S600000_S600000x1_0 dstv)
      (Host.gather gather_S50000x128_S600000x1_S600000x128_1_0_n_n_0_1_1128 tbl
        (broadcastInDim S600000x1 ![0] bcast_S600000_S600000x1_0
          (select (cmpi .slt srcv (broadcastInDim S600000 ![] bcast_S_S600000 (constantI S_ 32 0#32)))
            (addi srcv (broadcastInDim S600000 ![] bcast_S_S600000 (constantI S_ 32 50000#32))) srcv)))
      = Spec.aggV srcv dstv tbl := by
  funext i
  obtain ⟨n, f, rfl⟩ : ∃ (n : Fin 50000) (f : Fin 128), i = ix2 n f := ⟨i 0, i 1, eq_ix2 i⟩
  rw [Cert.HostIdx.scatterAdd_rows _ rfl rfl rfl rfl]
  unfold Spec.aggV
  refine congrArg₂ (· + ·) rfl (Finset.sum_congr (Finset.filter_congr fun e _ => ?_) fun e _ => ?_)
  · rw [bcast_col_apply]
  · rw [Cert.HostIdx.gather_rows _ rfl rfl rfl rfl rfl]
    refine congrArg tbl (congrArg₂ ix2 (Fin.ext ?_) rfl)
    show min _ (50000 - 1) = min (Spec.wrap (srcv (ix1 e))).toInt.toNat 49999
    rw [wrapped_apply]

theorem h1_v25 : (StableHlo.after hostOps1 W (Proc.devRef .tc main_v25) : S50000x128.Idx → EReal)
    = Spec.aggV (W (Proc.devRef .tc main_v1)) (W (Proc.devRef .tc main_v3)) (W (Proc.devRef .tc main_v15_1)) := by
  after_results_simp
  exact chain_eq _ _ _

theorem h2_v37 : (StableHlo.after hostOps2 W (Proc.devRef .tc main_v37) : S50000x128.Idx → EReal)
    = Spec.aggV (W (Proc.devRef .tc main_v1)) (W (Proc.devRef .tc main_v3)) (W (Proc.devRef .tc main_v27_1)) := by
  after_results_simp
  exact chain_eq _ _ _

theorem h3_v49 : (StableHlo.after hostOps3 W (Proc.devRef .tc main_v49) : S50000x128.Idx → EReal)
    = Spec.aggV (W (Proc.devRef .tc main_v1)) (W (Proc.devRef .tc main_v3)) (W (Proc.devRef .tc main_v39_1)) := by
  after_results_simp
  exact chain_eq _ _ _

end Cert.KernelIdeal.HostVal

end
-- ==== Proof.KI.HostValCnt.lean ====
import proofs.«409879_j3573412790605_2_alg».proof.Proof.Gen.KernelIdeal.Launch
import proofs.«409879_j3573412790605_2_alg».proof.Proof.HostIdx
import proofs.«409879_j3573412790605_2_alg».proof.Proof.KI.HostValLay
import proofs.«409879_j3573412790605_2_alg».proof.Proof.SpecCols
import Idealize.ShloMosaic.Lib.StableHlo.Run
import Idealize.ShloMosaic.Lib.Pipeline.Value
import Idealize.ShloMosaic.Lib.IdealHost
import Idealize.ShloMosaic.Lib.ValueIdx

set_option maxRecDepth 16384

noncomputable section

namespace Cert.KernelIdeal.HostVal

open Cert.KernelIdeal Cert.KernelIdeal.Gen
open Idealize.ShloMosaic Idealize.ShloMosaic.TcCoe Idealize.ShloMosaic.ValueIdx

variable (W : Valuation τ sig (Elt Ideal))

theorem cnt_deg_of (col : S600000.Idx → BitVec 32) (ei : S2x600000.Idx → BitVec 32)
    (hcol : ∀ e : Fin 600000, col (ix1 e) = Spec.dst ei e) (n : Fin 50000) :
    addf (Host.scatterAdd (F := Ideal) scatter_S50000_S600000x1_S600000_n_0_0_1
      (broadcastInDim S50000 ![] bcast_S_S50000 (constant (F := Ideal) S_ .f32 0x00000000#32))
      (broadcastInDim S600000x1 ![0] bcast_S600000_S600000x1_0 col)
      (broadcastInDim S600000 ![] bcast_S_S600000 (constant (F := Ideal) S_ .f32 0x3F800000#32))) (broadcastInDim S50000 ![] bcast_S_S50000 (constant (F := Ideal) S_ .f32 0x3F800000#32)) (ix1 n) = Spec.deg ei n := by
  rw [addf_apply, Cert.HostIdx.scatterAdd_vec _ rfl rfl rfl rfl]
  unfold Spec.deg Spec.edgesTo
  refine congrArg₂ (· + ·) (congrArg₂ (· + ·) rfl (Finset.sum_congr (Finset.filter_congr fun e _ => ?_) fun _ _ => rfl)) rfl
  rw [bcast_col_apply, hcol]

theorem cnt_nodes_apply (batch : S50000.Idx → BitVec 32) (g : Fin 64) :
    (Host.scatterAdd (F := Ideal) scatter_S64_S50000x1_S50000_n_0_0_1
      (broadcastInDim S64 ![] bcast_S_S64 (constant (F := Ideal) S_ .f32 0x00000000#32))
      (broadcastInDim S50000x1 ![0] bcast_S50000_S50000x1_0 batch)
      (broadcastInDim S50000 ![] bcast_S_S50000 (constant (F := Ideal) S_ .f32 0x3F800000#32))) (ix1 g)
      = Spec.zero + ∑ _r ∈ Spec.nodesOf batch g, Spec.one := by
  rw [Cert.HostIdx.scatterAdd_vec _ rfl rfl rfl rfl]
  unfold Spec.nodesOf
  refine congrArg₂ (· + ·) rfl (Finset.sum_congr (Finset.filter_congr fun r _ => ?_) fun _ _ => rfl)
  rw [bcast_col_apply]

theorem h0_v13 : (StableHlo.after hostOps0 W (Proc.devRef .tc main_v13) : S50000x1.Idx → EReal)
    = Spec.dinvCol (W (Proc.devRef .tc main_arg1)) := by
  after_results
  funext i
  refine (col_cast shapeCasts_S50000_S50000x1 _ i).trans ?_
  unfold Host.rsqrt Spec.dinvCol Spec.dinv
  rw [Ideal.hostUnary_rsqrt_def]
  refine congrArg Ideal.rsqrt ?_
  refine cnt_deg_of _ (W (Proc.devRef .tc main_arg1)) (fun e => ?_) (i 0)
  exact row_flat _ 1 (by decide) slices_S2x600000_S1x600000_1_0 (ix1 e)

theorem h0_v14 : (StableHlo.after hostOps0 W (Proc.devRef .tc main_v14) : S50000x1.Idx → EReal)
    = Spec.invdegCol (W (Proc.devRef .tc main_arg1)) := by
  after_results
  funext i
  refine (col_cast shapeCasts_S50000_S50000x1 _ i).trans ?_
  unfold Host.divf Spec.invdegCol Spec.invdeg
  rw [Ideal.hostDivf_def]
  refine congrArg₂ Ideal.div ?_ ?_
  · rfl
  · refine cnt_deg_of _ (W (Proc.devRef .tc main_arg1)) (fun e => ?_) (i 0)
    exact row_flat _ 1 (by decide) slices_S2x600000_S1x600000_1_0 (ix1 e)

theorem h3_v58 : (StableHlo.after hostOps3 W (Proc.devRef .tc main_v58) : S64x1.Idx → EReal)
    = Spec.cntCol (W (Proc.devRef .tc main_arg2)) := by
  after_results
  funext i
  refine (col_cast shapeCasts_S64_S64x1 _ i).trans ?_
  refine (maximumf_apply _ _ _).trans ?_
  unfold Spec.cntCol Spec.cnt
  refine congrArg₂ (max : EReal → EReal → EReal) ?_ ?_
  · exact cnt_nodes_apply (W (Proc.devRef .tc main_arg2)) (i 0)
  · rfl

end Cert.KernelIdeal.HostVal

end
-- ==== Proof.KI.KVal.lean ====
import proofs.«409879_j3573412790605_2_alg».proof.Proof.KI.Run
import proofs.«409879_j3573412790605_2_alg».proof.Proof.KI.Val0
import proofs.«409879_j3573412790605_2_alg».proof.Proof.KI.Val1
import proofs.«409879_j3573412790605_2_alg».proof.Proof.KI.Val2
import proofs.«409879_j3573412790605_2_alg».proof.Proof.KI.Val3
import proofs.«409879_j3573412790605_2_alg».proof.Proof.KI.HostVal
import proofs.«409879_j3573412790605_2_alg».proof.Proof.KI.HostValCnt
import proofs.«409879_j3573412790605_2_alg».proof.Proof.KI.HostValLay
import proofs.«409879_j3573412790605_2_alg».proof.Proof.SpecCols

set_option maxRecDepth 16384

noncomputable section

namespace Cert.KernelIdeal.HandV
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand

section
variable (m : (ℓ : Loc nD τ sig) → Buf (Elt Ideal) ℓ) (ρ : Dev nD → PrngReg) (c : Dev nD)

abbrev arg_ei : Spec.S2E.Idx → BitVec 32 := m ((c.tc : Thread nD τ).loc main_arg1)
abbrev arg_batch : Spec.SN.Idx → BitVec 32 := m ((c.tc : Thread nD τ).loc main_arg2)
abbrev arg_x : Spec.SNH.Idx → EReal := m ((c.tc : Thread nD τ).loc main_arg0)
abbrev arg_w1 : Spec.SHH.Idx → EReal := m ((c.tc : Thread nD τ).loc main_arg3)
abbrev arg_b1 : Spec.SH.Idx → EReal := m ((c.tc : Thread nD τ).loc main_arg4)
abbrev arg_w2 : Spec.SHH.Idx → EReal := m ((c.tc : Thread nD τ).loc main_arg5)
abbrev arg_b2 : Spec.SH.Idx → EReal := m ((c.tc : Thread nD τ).loc main_arg6)
abbrev arg_w3 : Spec.SHH.Idx → EReal := m ((c.tc : Thread nD τ).loc main_arg7)
abbrev arg_b3 : Spec.SH.Idx → EReal := m ((c.tc : Thread nD τ).loc main_arg8)
abbrev arg_wfc : Spec.SHO.Idx → EReal := m ((c.tc : Thread nD τ).loc main_arg9)
abbrev arg_bfc : Spec.SO.Idx → EReal := m ((c.tc : Thread nD τ).loc main_arg10)

theorem v1_launch (b : Ref sig .tc) (h0 : b ∉ hostOps0_W) : Hand.V1 m ρ c b = m ((c.tc : Thread nD τ).loc b) :=
  StableHlo.after_of_writes_sub hostOps0 _ hostOps0_writes h0
theorem v1_v13 : (Hand.V1 m ρ c main_v13 : Spec.SN1.Idx → EReal) = Spec.dinvCol (arg_ei m c) := HostVal.h0_v13 (W0 m ρ c)
theorem v1_arg0 : (Hand.V1 m ρ c main_arg0 : Spec.SNH.Idx → EReal) = (arg_x m c) := v1_launch m ρ c main_arg0 (by decide)
theorem v1_arg3 : (Hand.V1 m ρ c main_arg3 : Spec.SHH.Idx → EReal) = (arg_w1 m c) := v1_launch m ρ c main_arg3 (by decide)

abbrev Always (b : Ref sig .tc) (x : Buf (Elt Ideal) ((c.tc : Thread nD τ).loc b)) : Prop :=
  W2 m ρ c (Proc.devRef .tc b) = x ∧ Hand.V3 m ρ c b = x ∧ W4 m ρ c (Proc.devRef .tc b) = x
  ∧ Hand.V5 m ρ c b = x ∧ W6 m ρ c (Proc.devRef .tc b) = x ∧ Hand.V7 m ρ c b = x
-- What the first host stretch leaves in a buffer nothing later writes is there at every later boundary.
theorem always (b : Ref sig .tc) (x : Buf (Elt Ideal) ((c.tc : Thread nD τ).loc b)) (hq : Quiet b) (h1 : Hand.V1 m ρ c b = x) :
    Always m ρ c b x := by
  obtain ⟨e2, e3, e4, e5, e6, e7⟩ := quiet m ρ c b hq
  exact ⟨e2.trans h1, e3.trans h1, e4.trans h1, e5.trans h1, e6.trans h1, e7.trans h1⟩
theorem a_v1 : Always m ρ c main_v1 (Spec.srcV (arg_ei m c)) := always m ρ c _ _ (by decide) (HostVal.h0_v1 (W0 m ρ c))
theorem a_v3 : Always m ρ c main_v3 (Spec.dstV (arg_ei m c)) := always m ρ c _ _ (by decide) (HostVal.h0_v3 (W0 m ρ c))
theorem a_v13 : Always m ρ c main_v13 (Spec.dinvCol (arg_ei m c)) := always m ρ c _ _ (by decide) (v1_v13 m ρ c)
theorem a_v14 : Always m ρ c main_v14 (Spec.invdegCol (arg_ei m c)) := always m ρ c _ _ (by decide) (HostVal.h0_v14 (W0 m ρ c))
theorem a_arg2 : Always m ρ c main_arg2 (arg_batch m c) := always m ρ c _ _ (by decide) (v1_launch m ρ c _ (by decide))
theorem a_arg4 : Always m ρ c main_arg4 (arg_b1 m c) := always m ρ c _ _ (by decide) (v1_launch m ρ c _ (by decide))
theorem a_arg5 : Always m ρ c main_arg5 (arg_w2 m c) := always m ρ c _ _ (by decide) (v1_launch m ρ c _ (by decide))
theorem a_arg6 : Always m ρ c main_arg6 (arg_b2 m c) := always m ρ c _ _ (by decide) (v1_launch m ρ c _ (by decide))
theorem a_arg7 : Always m ρ c main_arg7 (arg_w3 m c) := always m ρ c _ _ (by decide) (v1_launch m ρ c _ (by decide))
theorem a_arg8 : Always m ρ c main_arg8 (arg_b3 m c) := always m ρ c _ _ (by decide) (v1_launch m ρ c _ (by decide))
theorem a_arg9 : Always m ρ c main_arg9 (arg_wfc m c) := always m ρ c _ _ (by decide) (v1_launch m ρ c _ (by decide))
theorem a_arg10 : Always m ρ c main_arg10 (arg_bfc m c) := always m ρ c _ _ (by decide) (v1_launch m ρ c _ (by decide))

theorem v2_v15_0 : (W2 m ρ c (Proc.devRef .tc main_v15_0) : Spec.SNH.Idx → EReal) = (Spec.mm (arg_x m c) (arg_w1 m c)) := by
  refine (W2_arr m ρ c 3).trans ?_
  refine (final0_3 (Hand.V1 m ρ) c).trans ?_
  rw [v1_arg0, v1_arg3]
theorem v2_v15_1 : (W2 m ρ c (Proc.devRef .tc main_v15_1) : Spec.SNH.Idx → EReal) = (Spec.scaled (arg_ei m c) (Spec.mm (arg_x m c) (arg_w1 m c))) := by
  refine (W2_arr m ρ c 4).trans ?_
  refine (final0_4 (Hand.V1 m ρ) c).trans ?_
  rw [v1_arg0, v1_arg3, v1_v13, Spec.scaledV_eq]

theorem v3_v25 : (Hand.V3 m ρ c main_v25 : Spec.SNH.Idx → EReal) = (Spec.aggK (arg_ei m c) (Spec.scaled (arg_ei m c) (Spec.mm (arg_x m c) (arg_w1 m c)))) := by
  have h := HostVal.h1_v25 (W2 m ρ c)
  rw [(a_v1 m ρ c).1, (a_v3 m ρ c).1, v2_v15_1, Spec.aggV_eq] at h
  exact h
theorem v3_v26 : (Hand.V3 m ρ c main_v26 : Spec.S1H.Idx → EReal) = Spec.biasRow (arg_b1 m c) := by
  have h := HostVal.h1_v26 (W2 m ρ c)
  rw [(a_arg4 m ρ c).1] at h
  exact h
theorem v3_v15_0 : (Hand.V3 m ρ c main_v15_0 : Spec.SNH.Idx → EReal) = (Spec.mm (arg_x m c) (arg_w1 m c)) :=
  (StableHlo.after_of_writes_sub hostOps1 _ hostOps1_writes (by decide)).trans (v2_v15_0 m ρ c)

theorem v4_v27_0 : (W4 m ρ c (Proc.devRef .tc main_v27_0) : Spec.SNH.Idx → EReal) = (Spec.mm (Spec.actK1 (arg_ei m c) (arg_x m c) (arg_w1 m c) (arg_b1 m c)) (arg_w2 m c)) := by
  refine (W4_arr m ρ c 6).trans ?_
  refine (final1_6 (Hand.V3 m ρ) c).trans ?_
  rw [v3_v25, v3_v15_0, (a_v13 m ρ c).2.1, (a_v14 m ρ c).2.1, v3_v26, (a_arg5 m ρ c).2.1, Spec.combV_eq]
  rfl
theorem v4_v27_1 : (W4 m ρ c (Proc.devRef .tc main_v27_1) : Spec.SNH.Idx → EReal) = (Spec.scaled (arg_ei m c) (Spec.mm (Spec.actK1 (arg_ei m c) (arg_x m c) (arg_w1 m c) (arg_b1 m c)) (arg_w2 m c))) := by
  refine (W4_arr m ρ c 7).trans ?_
  refine (final1_7 (Hand.V3 m ρ) c).trans ?_
  rw [v3_v25, v3_v15_0, (a_v13 m ρ c).2.1, (a_v14 m ρ c).2.1, v3_v26, (a_arg5 m ρ c).2.1, Spec.combV_eq, Spec.scaledV_eq]
  rfl

theorem v5_v37 : (Hand.V5 m ρ c main_v37 : Spec.SNH.Idx → EReal) = (Spec.aggK (arg_ei m c) (Spec.scaled (arg_ei m c) (Spec.mm (Spec.actK1 (arg_ei m c) (arg_x m c) (arg_w1 m c) (arg_b1 m c)) (arg_w2 m c)))) := by
  have h := HostVal.h2_v37 (W4 m ρ c)
  rw [(a_v1 m ρ c).2.2.1, (a_v3 m ρ c).2.2.1, v4_v27_1, Spec.aggV_eq] at h
  exact h
theorem v5_v38 : (Hand.V5 m ρ c main_v38 : Spec.S1H.Idx → EReal) = Spec.biasRow (arg_b2 m c) := by
  have h := HostVal.h2_v38 (W4 m ρ c)
  rw [(a_arg6 m ρ c).2.2.1] at h
  exact h
theorem v5_v27_0 : (Hand.V5 m ρ c main_v27_0 : Spec.SNH.Idx → EReal) = (Spec.mm (Spec.actK1 (arg_ei m c) (arg_x m c) (arg_w1 m c) (arg_b1 m c)) (arg_w2 m c)) :=
  (StableHlo.after_of_writes_sub hostOps2 _ hostOps2_writes (by decide)).trans (v4_v27_0 m ρ c)

theorem v6_v39_0 : (W6 m ρ c (Proc.devRef .tc main_v39_0) : Spec.SNH.Idx → EReal) = (Spec.mm (Spec.actK2 (arg_ei m c) (arg_x m c) (arg_w1 m c) (arg_w2 m c) (arg_b1 m c) (arg_b2 m c)) (arg_w3 m c)) := by
  refine (W6_arr m ρ c 6).trans ?_
  refine (final2_6 (Hand.V5 m ρ) c).trans ?_
  rw [v5_v37, v5_v27_0, (a_v13 m ρ c).2.2.2.1, (a_v14 m ρ c).2.2.2.1, v5_v38, (a_arg7 m ρ c).2.2.2.1, Spec.combV_eq]
  rfl
theorem v6_v39_1 : (W6 m ρ c (Proc.devRef .tc main_v39_1) : Spec.SNH.Idx → EReal) = (Spec.scaled (arg_ei m c) (Spec.mm (Spec.actK2 (arg_ei m c) (arg_x m c) (arg_w1 m c) (arg_w2 m c) (arg_b1 m c) (arg_b2 m c)) (arg_w3 m c))) := by
  refine (W6_arr m ρ c 7).trans ?_
  refine (final2_7 (Hand.V5 m ρ) c).trans ?_
  rw [v5_v37, v5_v27_0, (a_v13 m ρ c).2.2.2.1, (a_v14 m ρ c).2.2.2.1, v5_v38, (a_arg7 m ρ c).2.2.2.1, Spec.combV_eq, Spec.scaledV_eq]
  rfl

theorem v7_v49 : (Hand.V7 m ρ c main_v49 : Spec.SNH.Idx → EReal) = (Spec.aggK (arg_ei m c) (Spec.scaled (arg_ei m c) (Spec.mm (Spec.actK2 (arg_ei m c) (arg_x m c) (arg_w1 m c) (arg_w2 m c) (arg_b1 m c) (arg_b2 m c)) (arg_w3 m c)))) := by
  have h := HostVal.h3_v49 (W6 m ρ c)
  rw [(a_v1 m ρ c).2.2.2.2.1, (a_v3 m ρ c).2.2.2.2.1, v6_v39_1, Spec.aggV_eq] at h
  exact h
theorem v7_v56 : (Hand.V7 m ρ c main_v56 : Spec.S1H.Idx → EReal) = Spec.biasRow (arg_b3 m c) := by
  have h := HostVal.h3_v56 (W6 m ρ c)
  rw [(a_arg8 m ρ c).2.2.2.2.1] at h
  exact h
theorem v7_v39_0 : (Hand.V7 m ρ c main_v39_0 : Spec.SNH.Idx → EReal) = (Spec.mm (Spec.actK2 (arg_ei m c) (arg_x m c) (arg_w1 m c) (arg_w2 m c) (arg_b1 m c) (arg_b2 m c)) (arg_w3 m c)) :=
  (StableHlo.after_of_writes_sub hostOps3 _ hostOps3_writes (by decide)).trans (v6_v39_0 m ρ c)
theorem v7_v57 : (Hand.V7 m ρ c main_v57 : Spec.SN1.Idx → BitVec 32) = Spec.batchCol (arg_batch m c) := by
  have h := HostVal.h3_v57 (W6 m ρ c)
  rw [(a_arg2 m ρ c).2.2.2.2.1] at h
  exact h
theorem v7_v58 : (Hand.V7 m ρ c main_v58 : Spec.SG1.Idx → EReal) = Spec.cntCol (arg_batch m c) := by
  have h := HostVal.h3_v58 (W6 m ρ c)
  rw [(a_arg2 m ρ c).2.2.2.2.1] at h
  exact h
theorem v7_v59 : (Hand.V7 m ρ c main_v59 : Spec.S1O.Idx → EReal) = Spec.biasRowO (arg_bfc m c) := by
  have h := HostVal.h3_v59 (W6 m ρ c)
  rw [(a_arg10 m ρ c).2.2.2.2.1] at h
  exact h

end

theorem result_eq (m : (ℓ : Loc nD τ sig) → Buf (Elt Ideal) ℓ) (ρ : Dev nD → PrngReg) (c : Dev nD) :
    Cert.KernelIdeal.Hand.W8 (F := Ideal) m ρ c (Proc.devRef .tc main_v60)
      = Cert.Spec.specK (m ((c.tc : Thread nD τ).loc main_arg1)) (m ((c.tc : Thread nD τ).loc main_arg2)) (m ((c.tc : Thread nD τ).loc main_arg0))
          (m ((c.tc : Thread nD τ).loc main_arg3)) (m ((c.tc : Thread nD τ).loc main_arg5)) (m ((c.tc : Thread nD τ).loc main_arg7))
          (m ((c.tc : Thread nD τ).loc main_arg4)) (m ((c.tc : Thread nD τ).loc main_arg6)) (m ((c.tc : Thread nD τ).loc main_arg8))
          (m ((c.tc : Thread nD τ).loc main_arg9)) (m ((c.tc : Thread nD τ).loc main_arg10)) := by
  refine (W8_result m ρ c).trans ?_
  refine (final3_9 (Hand.V7 m ρ) c).trans ?_
  rw [v7_v49, v7_v39_0, (a_v13 m ρ c).2.2.2.2.2, (a_v14 m ρ c).2.2.2.2.2, v7_v56, v7_v57, v7_v58, (a_arg9 m ρ c).2.2.2.2.2, v7_v59, Spec.combV_eq, Spec.headV_eq]
  rfl

end Cert.KernelIdeal.HandV

end
-- ==== Proof.RefVal.lean ====
import proofs.«409879_j3573412790605_2_alg».proof.Proof.Gen.ReferenceIdeal.Read
import proofs.«409879_j3573412790605_2_alg».proof.Proof.Spec
import proofs.«409879_j3573412790605_2_alg».proof.Proof.HostIdx
import Idealize.ShloMosaic.Lib.Affine

noncomputable section

namespace Cert.RefVal

open Cert.ReferenceIdeal Cert.ReferenceIdeal.Read Idealize.ShloMosaic Idealize.ShloMosaic.ValueIdx Idealize.ShloMosaic.StableHlo

theorem gather_vec (x : S50000.Idx → EReal) (idx : S600000x1.Idx → BitVec 32) (e : Fin 600000) :
    Host.gather gather_S50000_S600000x1_S600000_n_0_n_n_0_1_1 x idx (ix1 e)
      = x (ix1 (Spec.clampN (idx (ix2 e (0 : Fin 1))))) :=
  Cert.HostIdx.gather_vec _ rfl rfl rfl rfl rfl x idx e

theorem gather_rows (x : S50000x128.Idx → EReal) (idx : S600000x1.Idx → BitVec 32) (e : Fin 600000) (f : Fin 128) :
    Host.gather gather_S50000x128_S600000x1_S600000x128_1_0_n_n_0_1_1128 x idx (ix2 e f)
      = x (ix2 (Spec.clampN (idx (ix2 e (0 : Fin 1)))) f) :=
  Cert.HostIdx.gather_rows _ rfl rfl rfl rfl rfl x idx e f

theorem src_col (x1 : S2x600000.Idx → BitVec 32) (j : S600000.Idx) :
    val_main_v1 (F := Ideal) x1 j = Spec.src x1 (j 0) := by
  rw [val_main_v1_apply, val_main_v0_apply]
  unfold Spec.src
  exact congrArg x1 (funext fun a => match a with
    | ⟨0, _⟩ => rfl
    | ⟨1, _⟩ => Fin.ext (Nat.mod_eq_of_lt (j 0).isLt))

theorem dst_col (x1 : S2x600000.Idx → BitVec 32) (j : S600000.Idx) :
    val_main_v3 (F := Ideal) x1 j = Spec.dst x1 (j 0) := by
  rw [val_main_v3_apply, val_main_v2_apply]
  unfold Spec.dst
  exact congrArg x1 (funext fun a => match a with
    | ⟨0, _⟩ => rfl
    | ⟨1, _⟩ => Fin.ext (Nat.mod_eq_of_lt (j 0).isLt))

section Layer
variable (x1 : S2x600000.Idx → BitVec 32)

theorem dcol7 (e : Fin 600000) : val_main_v7 (F := Ideal) x1 (ix2 e (0 : Fin 1)) = Spec.dst x1 e := by
  rw [val_main_v7_apply, dst_col]; rfl

theorem deg_eq (n : Fin 50000) : val_main_v10 (F := Ideal) x1 (ix1 n) = Spec.deg x1 n := by
  rw [val_main_v10_apply]
  unfold val_main_v8
  rw [Cert.HostIdx.scatterAdd_vec _ rfl rfl rfl rfl]
  simp only [dcol7]
  rfl

theorem dinv_eq (n : Fin 50000) : val_main_v11 (F := Ideal) x1 (ix1 n) = Spec.dinv x1 n := by
  rw [val_main_v11_apply, deg_eq, Ideal.hostUnary_rsqrt_def]; rfl

theorem wsrc17 (e : Fin 600000) : val_main_v17 (F := Ideal) x1 (ix2 e (0 : Fin 1)) = Spec.wrap (Spec.src x1 e) := by
  rw [val_main_v17_apply, val_main_v16_apply, val_main_v13_apply, val_main_v15_apply, val_main_v12_apply, val_main_c_apply,
    val_main_v14_apply, val_main_c_2_apply, Cert.HostIdx.select_wrap, src_col]
  rfl
theorem wdst24 (e : Fin 600000) : val_main_v24 (F := Ideal) x1 (ix2 e (0 : Fin 1)) = Spec.wrap (Spec.dst x1 e) := by
  rw [val_main_v24_apply, val_main_v23_apply, val_main_v20_apply, val_main_v22_apply, val_main_v19_apply, val_main_c_3_apply,
    val_main_v21_apply, val_main_c_4_apply, Cert.HostIdx.select_wrap, dst_col]
  rfl

-- The edge's weight: the product of its two end nodes' inverse square-root degrees.
theorem norm_eq (j : S600000.Idx) : val_main_v26 (F := Ideal) x1 j = Spec.normR x1 (j 0) := by
  obtain ⟨e, rfl⟩ : ∃ e, j = ix1 e := ⟨j 0, eq_ix1 j⟩
  rw [val_main_v26_apply]
  unfold val_main_v18 val_main_v25
  rw [gather_vec, gather_vec, wsrc17, wdst24, dinv_eq, dinv_eq]
  rfl

theorem invdeg_eq (j : S50000.Idx) : val_main_v41 (F := Ideal) x1 j = Spec.invdeg x1 (j 0) := by
  obtain ⟨n, rfl⟩ : ∃ n, j = ix1 n := ⟨j 0, eq_ix1 j⟩
  rw [val_main_v41_apply, deg_eq]; rfl
theorem bias_eq (b : S128.Idx → EReal) (i : S50000x128.Idx) : val_main_v47 (F := Ideal) b i = b (ix1 (i 1)) := by
  rw [val_main_v47_apply, val_main_v46_apply]
  exact congrArg b (funext fun a => match a with | ⟨0, _⟩ => rfl)

-- A layer after its matrix product, as a function of the linear features h and the bias b: messages, their sums by destination, output.
def msgs (h : S50000x128.Idx → EReal) : S600000x128.Idx → EReal :=
  mulf (F := Ideal) (φ := .f32) (Host.gather gather_S50000x128_S600000x1_S600000x128_1_0_n_n_0_1_1128 h (val_main_v17 (F := Ideal) x1))
    (val_main_v35 (F := Ideal) x1)
def aggr (h : S50000x128.Idx → EReal) : S50000x128.Idx → EReal :=
  Host.scatterAdd (F := Ideal) (φ := .f32) scatter_S50000x128_S600000x1_S600000x128_1_0_0_1 (val_main_v37 (F := Ideal))
    (val_main_v7 (F := Ideal) x1) (msgs x1 h)
def layer (h : S50000x128.Idx → EReal) (b : S128.Idx → EReal) : S50000x128.Idx → EReal :=
  maximumf (F := Ideal) (φ := .f32) (addf (F := Ideal) (φ := .f32) (addf (F := Ideal) (φ := .f32) (aggr x1 h) (mulf (F := Ideal) (φ := .f32) h (val_main_v43 (F := Ideal) x1)))
      (val_main_v47 (F := Ideal) b))
    (val_main_call0_v0 (F := Ideal))

theorem msgs_apply (h : S50000x128.Idx → EReal) (e : Fin 600000) (f : Fin 128) :
    msgs x1 h (ix2 e f) = h (ix2 (Spec.row (Spec.src x1 e)) f) * Spec.normR x1 e := by
  unfold msgs
  rw [mulf_apply, val_main_v35_apply, val_main_v34_apply, norm_eq, gather_rows, wsrc17]
  rfl

theorem aggr_apply (h : S50000x128.Idx → EReal) (n : Fin 50000) (f : Fin 128) :
    aggr x1 h (ix2 n f) = Spec.aggR x1 h (ix2 n f) := by
  unfold aggr
  rw [Cert.HostIdx.scatterAdd_rows _ rfl rfl rfl rfl]
  simp only [dcol7, msgs_apply]
  rfl

theorem layer_eq (h : S50000x128.Idx → EReal) (b : S128.Idx → EReal) : layer x1 h b = Spec.layerR x1 h b := by
  funext i
  obtain ⟨n, f, rfl⟩ : ∃ n f, i = ix2 n f := ⟨i 0, i 1, eq_ix2 i⟩
  unfold layer
  rw [maximumf_apply, addf_apply, addf_apply, mulf_apply, val_main_v43_apply, val_main_v42_apply, bias_eq, aggr_apply, invdeg_eq]
  rfl

theorem mm_eq (a : S50000x128.Idx → EReal) (w : S128x128.Idx → EReal) : val_main_v4 (F := Ideal) a w = Spec.mm a w := by
  funext i
  rw [val_main_v4_apply]
  unfold Spec.mm
  refine Finset.sum_congr rfl fun k _ => ?_
  have hl : lidx_main_v4 i k = ix2 (i 0) k := funext fun a => match a with | ⟨0, _⟩ => rfl | ⟨1, _⟩ => rfl
  have hr : ridx_main_v4 i k = ix2 k (i 1) := funext fun a => match a with | ⟨0, _⟩ => rfl | ⟨1, _⟩ => rfl
  rw [hl, hr]; rfl

variable (x0 : S50000x128.Idx → EReal) (x3 x5 x7 : S128x128.Idx → EReal) (x4 x6 x8 : S128.Idx → EReal)

-- Each layer's output is `layer` of the matrix product of the layer before.
theorem act1 : val_main_v49 (F := Ideal) x0 x1 x3 x4 = Spec.actR1 x1 x0 x3 x4 := by
  show layer x1 (val_main_v4 (F := Ideal) x0 x3) x4 = _
  rw [layer_eq, mm_eq]; rfl

theorem act2 : val_main_v95 (F := Ideal) x0 x1 x3 x4 x5 x6 = Spec.actR2 x1 x0 x3 x5 x4 x6 := by
  show layer x1 (val_main_v4 (F := Ideal) (val_main_v49 (F := Ideal) x0 x1 x3 x4) x5) x6 = _
  rw [layer_eq, mm_eq, act1]; rfl

theorem act3 : val_main_v141 (F := Ideal) x0 x1 x3 x4 x5 x6 x7 x8 = Spec.actR3 x1 x0 x3 x5 x7 x4 x6 x8 := by
  show layer x1 (val_main_v4 (F := Ideal) (val_main_v95 (F := Ideal) x0 x1 x3 x4 x5 x6) x7) x8 = _
  rw [layer_eq, mm_eq, act2]; rfl

end Layer

section Pool
variable (x0 : S50000x128.Idx → EReal) (x1 : S2x600000.Idx → BitVec 32) (x2 : S50000.Idx → BitVec 32)
  (x3 : S128x128.Idx → EReal) (x4 : S128.Idx → EReal) (x5 : S128x128.Idx → EReal) (x6 : S128.Idx → EReal)
  (x7 : S128x128.Idx → EReal) (x8 : S128.Idx → EReal) (x9 : S128x10.Idx → EReal) (x10 : S10.Idx → EReal)

theorem p_col143 (r : Fin 50000) : val_main_v143 (F := Ideal) x2 (ix2 r (0 : Fin 1)) = x2 (ix1 r) := by
  rw [val_main_v143_apply]
  exact congrArg x2 (funext fun a => match a with | ⟨0, _⟩ => rfl)

theorem p_sum (g : Fin 64) (f : Fin 128) :
    val_main_v144 (F := Ideal) x0 x1 x2 x3 x4 x5 x6 x7 x8 (ix2 g f)
      = Spec.sumR x2 (val_main_v141 (F := Ideal) x0 x1 x3 x4 x5 x6 x7 x8) g f := by
  unfold val_main_v144
  rw [Cert.HostIdx.scatterAdd_rows _ rfl rfl rfl rfl]
  simp only [p_col143]
  rfl

theorem p_col147 (r : Fin 50000) : val_main_v147 (F := Ideal) x2 (ix2 r (0 : Fin 1)) = x2 (ix1 r) := by
  rw [val_main_v147_apply]
  exact congrArg x2 (funext fun a => match a with | ⟨0, _⟩ => rfl)

theorem p_cnt (j : S64.Idx) : val_main_v150 (F := Ideal) x2 j = Spec.cnt x2 (j 0) := by
  obtain ⟨g, rfl⟩ : ∃ g, j = ix1 g := ⟨j 0, eq_ix1 j⟩
  rw [val_main_v150_apply]
  unfold val_main_v148
  rw [Cert.HostIdx.scatterAdd_vec _ rfl rfl rfl rfl]
  simp only [p_col147]
  rfl

theorem p_mean (g : Fin 64) (k : Fin 128) :
    val_main_v153 (F := Ideal) x0 x1 x2 x3 x4 x5 x6 x7 x8 (ix2 g k)
      = Ideal.div (Spec.sumR x2 (val_main_v141 (F := Ideal) x0 x1 x3 x4 x5 x6 x7 x8) g k) (Spec.cnt x2 g) := by
  rw [val_main_v153_apply, val_main_v152_apply, val_main_v151_apply, p_cnt, p_sum]
  rfl

theorem p_bias (i : S64x10.Idx) : val_main_v156 (F := Ideal) x10 i = x10 (ix1 (i 1)) := by
  rw [val_main_v156_apply, val_main_v155_apply]
  exact congrArg x10 (funext fun a => match a with | ⟨0, _⟩ => rfl)

theorem p_out : val_main_v157 (F := Ideal) x0 x1 x2 x3 x4 x5 x6 x7 x8 x9 x10
    = Spec.head x2 (Spec.sumR x2 (val_main_v141 (F := Ideal) x0 x1 x3 x4 x5 x6 x7 x8)) x9 x10 := by
  funext i
  rw [val_main_v157_apply, val_main_v154_apply, p_bias, Ideal.addf_def]
  unfold Spec.head
  refine congrArg₂ (· + ·) (Finset.sum_congr rfl fun k _ => ?_) rfl
  have hl : lidx_main_v154 i k = ix2 (i 0) k := funext fun a => match a with | ⟨0, _⟩ => rfl | ⟨1, _⟩ => rfl
  have hr : ridx_main_v154 i k = ix2 k (i 1) := funext fun a => match a with | ⟨0, _⟩ => rfl | ⟨1, _⟩ => rfl
  rw [hl, hr]
  exact congrArg (· * x9 (ix2 k (i 1))) (p_mean x0 x1 x2 x3 x4 x5 x6 x7 x8 (i 0) k)

theorem val_eq : val_main_v157 (F := Ideal) x0 x1 x2 x3 x4 x5 x6 x7 x8 x9 x10
    = Spec.specR x1 x2 x0 x3 x5 x7 x4 x6 x8 x9 x10 := by
  rw [p_out, act3]; rfl

end Pool

theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v157 (F := Ideal) m c
      = Cert.Spec.specR (m ((c.tc : Thread nD τ).loc main_arg1)) (m ((c.tc : Thread nD τ).loc main_arg2))
          (m ((c.tc : Thread nD τ).loc main_arg0)) (m ((c.tc : Thread nD τ).loc main_arg3))
          (m ((c.tc : Thread nD τ).loc main_arg5)) (m ((c.tc : Thread nD τ).loc main_arg7))
          (m ((c.tc : Thread nD τ).loc main_arg4)) (m ((c.tc : Thread nD τ).loc main_arg6))
          (m ((c.tc : Thread nD τ).loc main_arg8)) (m ((c.tc : Thread nD τ).loc main_arg9))
          (m ((c.tc : Thread nD τ).loc main_arg10)) := by
  rw [val_main_v157_eq]
  exact val_eq _ _ _ _ _ _ _ _ _ _ _

end Cert.RefVal

end
-- ==== Proof.Bridge.lean ====
import proofs.«409879_j3573412790605_2_alg».proof.Proof.Spec
import Mathlib.Data.EReal.Operations
import Mathlib.Analysis.Real.Sqrt
import Mathlib.Algebra.BigOperators.Group.Finset.Basic

noncomputable section

namespace Cert.Spec

open Idealize.ShloMosaic Idealize.ShloMosaic.ValueIdx

theorem zero_eq : zero = 0 := by
  simp [zero, Ideal.ofBits, Ideal.ieee]

theorem one_eq : one = 1 := by
  simp [one, Ideal.ofBits, Ideal.ieee, -EReal.coe_mul]
  norm_num

variable (ei : S2E.Idx → BitVec 32) (batch : SN.Idx → BitVec 32)

theorem deg_eq (n : Fin 50000) : deg ei n = ((((edgesTo ei n).card : ℝ) + 1 : ℝ) : EReal) := by
  unfold deg
  rw [zero_eq, one_eq, zero_add, Finset.sum_const, EReal.nsmul_eq_mul, mul_one, EReal.coe_add, EReal.coe_one]
  rfl

theorem dinv_eq (n : Fin 50000) :
    dinv ei n = (((Real.sqrt (((edgesTo ei n).card : ℝ) + 1))⁻¹ : ℝ) : EReal) := by
  have hpos : (0 : ℝ) < ((edgesTo ei n).card : ℝ) + 1 := by positivity
  unfold dinv
  rw [deg_eq, Ideal.rsqrt_coe, if_neg (not_lt.mpr hpos.le), if_neg hpos.ne']

theorem dinv_nonneg (n : Fin 50000) : 0 ≤ dinv ei n := by
  rw [dinv_eq]
  exact EReal.coe_nonneg.mpr (inv_nonneg.mpr (Real.sqrt_nonneg _))

theorem dinv_ne_top (n : Fin 50000) : dinv ei n ≠ ⊤ := by
  rw [dinv_eq]
  exact EReal.coe_ne_top _

theorem sum_mul_of_nonneg_of_ne_top {ι : Type*} (s : Finset ι) (a : ι → EReal) {c : EReal}
    (h0 : 0 ≤ c) (ht : c ≠ ⊤) : (∑ e ∈ s, a e) * c = ∑ e ∈ s, a e * c := by
  classical
  induction s using Finset.induction_on with
  | empty => simp
  | insert x s hx ih =>
    rw [Finset.sum_insert hx, Finset.sum_insert hx, EReal.right_distrib_of_nonneg_of_ne_top h0 ht, ih]

theorem row_dst_of_mem {n : Fin 50000} {e : Fin 600000} (h : e ∈ edgesTo ei n) : row (dst ei e) = n := by
  have hd : (dst ei e).toInt = (n.val : Int) := (Finset.mem_filter.mp h).2
  have := n.isLt
  unfold row wrap
  rw [if_neg (by omega)]
  exact Fin.ext (show min (dst ei e).toInt.toNat 49999 = n.val by omega)

theorem sum_scaled_mul_dinv (h : SNH.Idx → EReal) (n : Fin 50000) (f : Fin 128) :
    (zero + ∑ e ∈ edgesTo ei n, h (ix2 (row (src ei e)) f) * dinv ei (row (src ei e))) * dinv ei n
      = zero + ∑ e ∈ edgesTo ei n,
          h (ix2 (row (src ei e)) f) * (dinv ei (row (src ei e)) * dinv ei (row (dst ei e))) := by
  rw [zero_eq, zero_add, zero_add]
  refine (sum_mul_of_nonneg_of_ne_top (edgesTo ei n)
    (fun e => h (ix2 (row (src ei e)) f) * dinv ei (row (src ei e)))
    (dinv_nonneg ei n) (dinv_ne_top ei n)).trans ?_
  refine Finset.sum_congr rfl fun e he => ?_
  rw [row_dst_of_mem ei he, mul_assoc]

theorem aggK_mul_dinv (h : SNH.Idx → EReal) (i : SNH.Idx) :
    aggK ei (scaled ei h) i * dinv ei (i 0) = aggR ei h i :=
  sum_scaled_mul_dinv ei h (i 0) (i 1)

theorem layerK_eq_layerR (h : SNH.Idx → EReal) (b : SH.Idx → EReal) : layerK ei h b = layerR ei h b := by
  funext i
  show max ((aggK ei (scaled ei h) i * dinv ei (i 0) + h i * invdeg ei (i 0)) + b (ix1 (i 1))) zero
    = max ((aggR ei h i + h i * invdeg ei (i 0)) + b (ix1 (i 1))) zero
  rw [aggK_mul_dinv]

theorem toInt_ofNat_graph (g : Fin 64) : (BitVec.ofNat 32 g.val).toInt = (g.val : Int) := by
  have := g.isLt
  rw [BitVec.toInt_eq_toNat_cond, BitVec.toNat_ofNat]
  omega

theorem oh_eq (g : Fin 64) (r : Fin 50000) :
    oh batch g r = if (batch (ix1 r)).toInt = (g.val : Int) then 1 else 0 := by
  have hiff : batch (ix1 r) = BitVec.ofNat 32 g.val ↔ (batch (ix1 r)).toInt = (g.val : Int) := by
    constructor
    · intro h
      rw [h, toInt_ofNat_graph]
    · intro h
      exact BitVec.eq_of_toInt_eq (h.trans (toInt_ofNat_graph g).symm)
  unfold oh
  exact if_congr hiff rfl rfl

theorem sumK_eq_sumR (a : SNH.Idx → EReal) : sumK batch a = sumR batch a := by
  funext g f
  unfold sumK sumR nodesOf
  rw [zero_eq, zero_add, Finset.sum_filter]
  refine Finset.sum_congr rfl fun r _ => ?_
  rw [oh_eq, ite_mul, one_mul, zero_mul]

variable (x : SNH.Idx → EReal) (W1 W2 W3 : SHH.Idx → EReal) (b1 b2 b3 : SH.Idx → EReal)
  (Wfc : SHO.Idx → EReal) (bfc : SO.Idx → EReal)

theorem specK_eq_specR :
    specK ei batch x W1 W2 W3 b1 b2 b3 Wfc bfc = specR ei batch x W1 W2 W3 b1 b2 b3 Wfc bfc := by
  unfold specK specR actK3 actR3 actK2 actR2 actK1 actR1
  rw [layerK_eq_layerR, layerK_eq_layerR, layerK_eq_layerR, sumK_eq_sumR]

end Cert.Spec

end
-- ==== Proof.lean ====
import proofs.«409879_j3573412790605_2_alg».proof.Defs
import proofs.«409879_j3573412790605_2_alg».proof.Proof.Gen.Kernel
import proofs.«409879_j3573412790605_2_alg».proof.Proof.Gen.KernelIdeal
import proofs.«409879_j3573412790605_2_alg».proof.Proof.Gen.ReferenceIdeal
import proofs.«409879_j3573412790605_2_alg».proof.Proof.Gen.Pre_finite_inputs
import proofs.«409879_j3573412790605_2_alg».proof.Proof.Gen.ReferenceIdeal.Run
import proofs.«409879_j3573412790605_2_alg».proof.Proof.K.Run
import proofs.«409879_j3573412790605_2_alg».proof.Proof.KI.Run
import proofs.«409879_j3573412790605_2_alg».proof.Proof.KI.KVal
import proofs.«409879_j3573412790605_2_alg».proof.Proof.RefVal
import proofs.«409879_j3573412790605_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame_all m ρ

theorem frame_ki : Cert.frame_KernelIdeal := fun m ρ _ => Cert.KernelIdeal.Hand.frame_all m ρ

theorem frame_ri : Cert.frame_ReferenceIdeal := fun m ρ _ =>
  (θ_run Cert.ReferenceIdeal.defs _ _).mono (fun _ h c => (h c).2) (Cert.ReferenceIdeal.Value.run (F := Ideal) m ρ)

-- Both results are one function of the arguments: the kernel's last valuation of its result array.
theorem algebraic : Cert.algebraic_KernelIdeal_ReferenceIdeal := by
  intro m ρ m' ρ' _ hagree
  refine ⟨fun c => Cert.KernelIdeal.Hand.W8 (F := Ideal) m ρ c (Proc.devRef .tc Cert.KernelIdeal.main_v60),
    Cert.KernelIdeal.Hand.run_post (F := Ideal) m ρ, ?_⟩
  refine (θ_run Cert.ReferenceIdeal.defs _ _).mono (fun _ h c => ⟨?_, (h c).2⟩)
    (Cert.ReferenceIdeal.Value.run (F := Ideal) m' ρ')
  obtain ⟨h0, h1, h2, h3, h4, h5, h6, h7, h8, h9, h10⟩ := hagree c
  rw [(h c).1, Cert.RefVal.result_eq, h0, h1, h2, h3, h4, h5, h6, h7, h8, h9, h10]
  exact ((Cert.KernelIdeal.HandV.result_eq m ρ c).trans (Cert.Spec.specK_eq_specR _ _ _ _ _ _ _ _ _ _ _)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
